-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S320000x1 : Shape := ⟨2, ![320000, 1]⟩
abbrev S10000x1 : Shape := ⟨2, ![10000, 1]⟩
abbrev S2x320000 : Shape := ⟨2, ![2, 320000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x1 : S_.BroadcastsInDim S320000x1 (![] : Fin 0 → Fin S320000x1.rank)
  reducesTo_S320000x1_S_d0_1 : S320000x1.ReducesTo [0, 1] S_
  bcast_S_S10000x1 : S_.BroadcastsInDim S10000x1 (![] : Fin 0 → Fin S10000x1.rank)
  reducesTo_S10000x1_S_d0_1 : S10000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part1 {F : FTy → Type} [FloatOps F] (main_arg3 : IVec S2x320000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S2x320000 32 := broadcastInDim S2x320000 ![] bcast_S_S2x320000 main_c_8
  let main_v25 : IVec S2x320000 1 := cmpi .sge main_arg3 main_v24
  let main_c_9 : IVec S_ 32 := constantI S_ 32 9999#32
  let main_v26 : IVec S2x320000 32 := broadcastInDim S2x320000 ![] bcast_S_S2x320000 main_c_9
  let main_v27 : IVec S2x320000 1 := cmpi .sle main_arg3 main_v26
  let main_v28 : IVec S2x320000 1 := andi main_v25 main_v27
  let main_c_10 : IVec S_ 1 := constantI S_ 1 1#1
  let main_v29 : IVec S_ 1 := (fun x v => Host.reduce IntOp.andi x v reducesTo_S2x320000_S_d0_1 h_S_) main_v28 main_c_10
  let main_v30 : IVec S_ 1 := andi main_v23 main_v29
  main_v30

def fn {F : FTy → Type} [FloatOps F] (main_arg0 : FVec F S10000x128 .f32) (main_arg1 : FVec F S320000x1 .f32) (main_arg2 : FVec F S10000x1 .f32) (main_arg3 : IVec S2x320000 32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x1 .f32 := Host.absf main_arg1
  let main_cst_0 : FVec F S_ .f32 := constant S_ .f32 0x7F800000#32
  let main_v5 : FVec F S320000x1 .f32 := broadcastInDim S320000x1 ![] bcast_S_S320000x1 main_cst_0
  let main_v6 : IVec S320000x1 1 := cmpf .olt main_v4 main_v5
  let main_c_1 : IVec S_ 1 := constantI S_ 1 1#1
  let main_v7 : IVec S_ 1 := (fun x v => Host.reduce IntOp.andi x v reducesTo_S320000x1_S_d0_1 h_S_) main_v6 main_c_1
  let main_v8 : IVec S_ 1 := andi main_v3 main_v7
  let main_v9 : FVec F S10000x1 .f32 := Host.absf main_arg2
  let main_cst_2 : FVec F S_ .f32 := constant S_ .f32 0x7F800000#32
  let main_v10 : FVec F S10000x1 .f32 := broadcastInDim S10000x1 ![] bcast_S_S10000x1 main_cst_2
  let main_v11 : IVec S10000x1 1 := cmpf .olt main_v9 main_v10
  let main_c_3 : IVec S_ 1 := constantI S_ 1 1#1
  let main_v12 : IVec S_ 1 := (fun x v => Host.reduce IntOp.andi x v reducesTo_S10000x1_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg5 main_v13 main_v16
-- ==== Kernel.lean ====
abbrev S10000x128 : Shape := ⟨2, ![10000, 128]⟩
abbrev S320000x1 : Shape := ⟨2, ![320000, 1]⟩
abbrev S10000x1 : Shape := ⟨2, ![10000, 1]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S32x10000 : Shape := ⟨2, ![32, 10000]⟩
abbrev S10000 : Shape := ⟨1, ![10000]⟩
abbrev S16 : Shape := ⟨1, ![16]⟩
abbrev S2x1x1280 : Shape := ⟨3, ![2, 1, 1280]⟩
abbrev S2 : Shape := ⟨1, ![2]⟩
abbrev S1x1x1280 : Shape := ⟨3, ![1, 1, 1280]⟩
abbrev S1x1280 : Shape := ⟨2, ![1, 1280]⟩
abbrev S1 : Shape := ⟨1, ![1]⟩
abbrev S_ : Shape := ⟨0, ![]⟩
abbrev S1x16 : Shape := ⟨2, ![1, 16]⟩
abbrev S1x10000 : Shape := ⟨2, ![1, 10000]⟩
abbrev S1x128 : Shape := ⟨2, ![1, 128]⟩
abbrev S32x1 : Shape := ⟨2, ![32, 1]⟩

abbrev nBuf : Table → Nat
  | .hbm => 11
  | .local .tc .vmem => 8
  | .local .scVector .vmem => 3
  | _ => 0

abbrev bufTy : (tb : Table) → Fin (nBuf tb) → BufTy
  | .hbm, ⟨0, _⟩ => ⟨S10000x128, .f32⟩
  | .hbm, ⟨1, _⟩ => ⟨S320000x1, .f32⟩
  | .hbm, ⟨2, _⟩ => ⟨S10000x1, .f32⟩
  | .hbm, ⟨3, _⟩ => ⟨S2x320000, .i32⟩
  | .hbm, ⟨4, _⟩ => ⟨S128x128, .f32⟩
  | .hbm, ⟨5, _⟩ => ⟨S128, .f32⟩
  | .hbm, ⟨6, _⟩ => ⟨S1x320000, .f32⟩
  | .hbm, ⟨7, _⟩ => ⟨S32x10000, .f32⟩
  | .hbm, ⟨8, _⟩ => ⟨S10000x128, .f32⟩
  | .hbm, ⟨9, _⟩ => ⟨S1x128, .f32⟩
  | .hbm, ⟨10, _⟩ => ⟨S10000x128, .f32⟩
  | .local .tc .vmem, ⟨0, _⟩ => ⟨S10000x128, .f32⟩
  | .local .tc .vmem, ⟨1, _⟩ => ⟨S128x128, .f32⟩
  | .local .tc .vmem, ⟨2, _⟩ => ⟨S10000x128, .f32⟩
  | .local .tc .vmem, ⟨3, _⟩ => ⟨S10000x128, .f32⟩
  | .local .tc .vmem, ⟨4, _⟩ => ⟨S32x10000, .f32⟩
  | .local .tc .vmem, ⟨5, _⟩ => ⟨S10000x1, .f32⟩
  | .local .tc .vmem, ⟨6, _⟩ => ⟨S1x128, .f32⟩
  | .local .tc .vmem, ⟨7, _⟩ => ⟨S10000x128, .f32⟩
  | .local .scVector .vmem, ⟨0, _⟩ => ⟨S10000, .f32⟩
  | .local .scVector .vmem, ⟨1, _⟩ => ⟨S2x1x1280, .i32⟩
  | .local .scVector .vmem, ⟨2, _⟩ => ⟨S2x1x1280, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg3_scv : Ref sig .scVector := ⟨.hbm, 3, rfl⟩
abbrev main_v0_scv : Ref sig .scVector := ⟨.hbm, 6, rfl⟩
abbrev main_v1_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc2_stg0_0 : Ref sig .tc := ⟨.vmem, 3, rfl⟩
abbrev cc2_stg1_0 : Ref sig .tc := ⟨.vmem, 4, rfl⟩
abbrev cc2_stg2_0 : Ref sig .tc := ⟨.vmem, 5, rfl⟩
abbrev cc2_stg3_0 : Ref sig .tc := ⟨.vmem, 6, rfl⟩
abbrev cc2_stg4_0 : Ref sig .tc := ⟨.vmem, 7, rfl⟩
abbrev cc0_scratch0 : Ref sig .scVector := ⟨.vmem, 0, rfl⟩
abbrev cc0_scoped0 : Ref sig .scVector := ⟨.vmem, 1, rfl⟩
abbrev cc0_scoped2 : Ref sig .scVector := ⟨.vmem, 2, rfl⟩
abbrev cc1_sem0_0 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c625_i32 : BitVec 32 := 625#32
  let v0 : BitVec 32 := Scalar.addi c0_i32 c625_i32
  let c1_i32 : BitVec 32 := 1#32
  ⟨c0_i32, v0, c1_i32⟩
def k0_off1 (k0_t1 : Fin k0_t1_loop.trips) : Fin 1 → Nat :=
  let c0_i32_8 : BitVec 32 := 0#32
  let c0_i32 : BitVec 32 := 0#32
  let c1_i32 : BitVec 32 := 1#32
  let arg6 : BitVec 32 := Scf.iv c0_i32 c1_i32 k0_t1
  let c16_i32_7 : BitVec 32 := 16#32
  let v15 : BitVec 32 := Scalar.muli arg6 c16_i32_7
  let v16 : BitVec 32 := Scalar.addi c0_i32_8 v15
  let v18 : Index := Scalar.indexCast v16
  ![v18.toNat]
def k0_cond1 (i : grid0.Coords) : BitVec 1 :=
  let c1_i32_6 : BitVec 32 := 1#32
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v12 : BitVec 32 := Scalar.muli c1_i32_6 v6
  let c0_i32_8_r0 : BitVec 32 := 0#32
  let v17_r0 : BitVec 1 := Scalar.cmpi .sgt v12 c0_i32_8_r0
  let v18_r0 : BitVec 32 := Scalar.extui v17_r0
  let c0_i32_9_r0 : BitVec 32 := 0#32
  let v19_r0 : BitVec 1 := Scalar.cmpi .ne v18_r0 c0_i32_9_r0
  v19_r0

def k0_off2 : Fin 3 → Nat :=
  let c0_i32_24_r0 : BitVec 32 := 0#32
  let c2_i32_25_r0 : BitVec 32 := 2#32
  let v38_r0 : BitVec 32 := Scalar.remui c0_i32_24_r0 c2_i32_25_r0
  let c0_i32_26_r0 : BitVec 32 := 0#32
  let c0_i32_27_r0 : BitVec 32 := 0#32
  ![v38_r0.toNat, 0, 0]
def k0_off3 (i : grid0.Coords) : Fin 2 → Nat :=
  let c1_i32_28_r0 : BitVec 32 := 1#32
  let c1280_i32_r0 : BitVec 32 := 1280#32
  let c0_i32_13_r0 : BitVec 32 := 0#32
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v23_r0 : BitVec 32 := Scalar.addi c0_i32_13_r0 v11
  let v39_r0 : BitVec 32 := Scalar.muli c1280_i32_r0 v23_r0
  ![1, v39_r0.toNat]
def k0_off4 : Fin 1 → Nat :=
  let c0_i32_24_r0 : BitVec 32 := 0#32
  let c2_i32_25_r0 : BitVec 32 := 2#32
  let v38_r0 : BitVec 32 := Scalar.remui c0_i32_24_r0 c2_i32_25_r0
  ![v38_r0.toNat]
def k0_off5 (i : grid0.Coords) : Fin 2 → Nat :=
  let c0_i32_39_r0 : BitVec 32 := 0#32
  let c1280_i32_36_r0 : BitVec 32 := 1280#32
  let c0_i32_13_r0 : BitVec 32 := 0#32
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v23_r0 : BitVec 32 := Scalar.addi c0_i32_13_r0 v11
  let v50_r0 : BitVec 32 := Scalar.muli c1280_i32_36_r0 v23_r0
  ![0, v50_r0.toNat]
@[reducible] def k0_t2_loop (i : grid0.Coords) : Scf.Loop 32 :=
  let c0_i32_45_r0 : BitVec 32 := 0#32
  let c1_i32_6 : BitVec 32 := 1#32
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v12 : BitVec 32 := Scalar.muli c1_i32_6 v6
  let v60_r0 : BitVec 32 := Scalar.subi v12 c0_i32_45_r0
  let c1_i32_49_r0 : BitVec 32 := 1#32
  let v62_r0 : BitVec 32 := Scalar.divsi v60_r0 c1_i32_49_r0
  let v63_r0 : BitVec 32 := Scalar.muli v62_r0 c1_i32_49_r0
  let v64_r0 : BitVec 32 := Scalar.addi c0_i32_45_r0 v63_r0
  let c1_i32_50_r0 : BitVec 32 := 1#32
  ⟨c0_i32_45_r0, v64_r0, c1_i32_50_r0⟩
def k0_off6 (arg7_r0 : BitVec 32) : Fin 3 → Nat :=
  let c2_i32_122_r0 : BitVec 32 := 2#32
  let v192_r0 : BitVec 32 := Scalar.remui arg7_r0 c2_i32_122_r0
  let c0_i32_124_r0 : BitVec 32 := 0#32
  let c0_i32_125_r0 : BitVec 32 := 0#32
  ![v192_r0.toNat, 0, 0]
def k0_cond2 (i : grid0.Coords) (k0_t2 : Fin (k0_t2_loop i).trips) (arg11_r0 : BitVec 32) : BitVec 1 :=
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let true_80_r0 : BitVec 1 := 1#1
  let c1_i32_79_r0 : BitVec 32 := 1#32
  let v109_r0 : BitVec 32 := Scalar.addi arg11_r0 c1_i32_79_r0
  let v110_r0 : BitVec 32 := Scalar.select true_80_r0 v109_r0 arg11_r0
  let v111_r0 : BitVec 1 := Scalar.cmpi .eq v110_r0 v6
  let c0_i32_81_r0 : BitVec 32 := 0#32
  let v112_r0 : BitVec 32 := Scalar.select v111_r0 c0_i32_81_r0 v110_r0
  let v113_r0 : BitVec 32 := Scalar.addi v112_r0 v11
  let v119_r0 : BitVec 1 := Scalar.cmpi .ne v102_r0 v113_r0
  let c0_i32_45_r0 : BitVec 32 := 0#32
  let c1_i32_50_r0 : BitVec 32 := 1#32
  let arg6_r0 : BitVec 32 := Scf.iv c0_i32_45_r0 c1_i32_50_r0 k0_t2
  let c1_i32_72_r0 : BitVec 32 := 1#32
  let v98_r0 : BitVec 32 := Scalar.muli c1_i32_72_r0 v6
  let c2_i32_85_r0 : BitVec 32 := 2#32
  let v120_r0 : BitVec 32 := Scalar.subi v98_r0 c2_i32_85_r0
  let c1_i32_86_r0 : BitVec 32 := 1#32
  let v121_r0 : BitVec 32 := Scalar.addi v120_r0 c1_i32_86_r0
  let v122_r0 : BitVec 1 := Scalar.cmpi .sge arg6_r0 v121_r0
  let true_87_r0 : BitVec 1 := 1#1
  let v123_r0 : BitVec 1 := Scalar.xori v122_r0 true_87_r0
  let v124_r0 : BitVec 1 := Scalar.andi v119_r0 v123_r0
  let v125_r0 : BitVec 32 := Scalar.extui v124_r0
  let c0_i32_88_r0 : BitVec 32 := 0#32
  let v126_r0 : BitVec 1 := Scalar.cmpi .ne v125_r0 c0_i32_88_r0
  v126_r0

def k0_off7 (i : grid0.Coords) (arg11_r0 : BitVec 32) : Fin 2 → Nat :=
  let c1_i32_126_r0 : BitVec 32 := 1#32
  let c1280_i32_123_r0 : BitVec 32 := 1280#32
  let true_80_r0 : BitVec 1 := 1#1
  let c1_i32_79_r0 : BitVec 32 := 1#32
  let v109_r0 : BitVec 32 := Scalar.addi arg11_r0 c1_i32_79_r0
  let v110_r0 : BitVec 32 := Scalar.select true_80_r0 v109_r0 arg11_r0
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v111_r0 : BitVec 1 := Scalar.cmpi .eq v110_r0 v6
  let c0_i32_81_r0 : BitVec 32 := 0#32
  let v112_r0 : BitVec 32 := Scalar.select v111_r0 c0_i32_81_r0 v110_r0
  let c26_i32_3 : BitVec 32 := 26#32
  let v7 : BitVec 1 := Scalar.cmpi .slt v4 c26_i32_3
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v113_r0 : BitVec 32 := Scalar.addi v112_r0 v11
  let v193_r0 : BitVec 32 := Scalar.muli c1280_i32_123_r0 v113_r0
  ![1, v193_r0.toNat]
def k0_off8 (arg7_r0 : BitVec 32) : Fin 1 → Nat :=
  let c2_i32_122_r0 : BitVec 32 := 2#32
  let v192_r0 : BitVec 32 := Scalar.remui arg7_r0 c2_i32_122_r0
  ![v192_r0.toNat]
def k0_off9 (arg9_r0 : BitVec 32) : Fin 3 → Nat :=
  let c2_i32_122_r0 : BitVec 32 := 2#32
  let v192_r0 : BitVec 32 := Scalar.remui arg9_r0 c2_i32_122_r0
  let c0_i32_124_r0 : BitVec 32 := 0#32
  let c0_i32_125_r0 : BitVec 32 := 0#32
  ![v192_r0.toNat, 0, 0]
def k0_cond3 (i : grid0.Coords) (k0_t2 : Fin (k0_t2_loop i).trips) (arg11_r0 : BitVec 32) : BitVec 1 :=
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let true_80_r0 : BitVec 1 := 1#1
  let c1_i32_79_r0 : BitVec 32 := 1#32
  let v109_r0 : BitVec 32 := Scalar.addi arg11_r0 c1_i32_79_r0
  let v110_r0 : BitVec 32 := Scalar.select true_80_r0 v109_r0 arg11_r0
  let v111_r0 : BitVec 1 := Scalar.cmpi .eq v110_r0 v6
  let c0_i32_81_r0 : BitVec 32 := 0#32
  let v112_r0 : BitVec 32 := Scalar.select v111_r0 c0_i32_81_r0 v110_r0
  let v113_r0 : BitVec 32 := Scalar.addi v112_r0 v11
  let v130_r0 : BitVec 1 := Scalar.cmpi .ne v102_r0 v113_r0
  let c0_i32_45_r0 : BitVec 32 := 0#32
  let c1_i32_50_r0 : BitVec 32 := 1#32
  let arg6_r0 : BitVec 32 := Scf.iv c0_i32_45_r0 c1_i32_50_r0 k0_t2
  let c1_i32_72_r0 : BitVec 32 := 1#32
  let v98_r0 : BitVec 32 := Scalar.muli c1_i32_72_r0 v6
  let c2_i32_91_r0 : BitVec 32 := 2#32
  let v131_r0 : BitVec 32 := Scalar.subi v98_r0 c2_i32_91_r0
  let c1_i32_92_r0 : BitVec 32 := 1#32
  let v132_r0 : BitVec 32 := Scalar.addi v131_r0 c1_i32_92_r0
  let v133_r0 : BitVec 1 := Scalar.cmpi .sge arg6_r0 v132_r0
  let true_93_r0 : BitVec 1 := 1#1
  let v134_r0 : BitVec 1 := Scalar.xori v133_r0 true_93_r0
  let v135_r0 : BitVec 1 := Scalar.andi v130_r0 v134_r0
  let v136_r0 : BitVec 32 := Scalar.extui v135_r0
  let c0_i32_94_r0 : BitVec 32 := 0#32
  let v137_r0 : BitVec 1 := Scalar.cmpi .ne v136_r0 c0_i32_94_r0
  v137_r0

def k0_off10 (i : grid0.Coords) (arg11_r0 : BitVec 32) : Fin 2 → Nat :=
  let c0_i32_126_r0 : BitVec 32 := 0#32
  let c1280_i32_123_r0 : BitVec 32 := 1280#32
  let true_80_r0 : BitVec 1 := 1#1
  let c1_i32_79_r0 : BitVec 32 := 1#32
  let v109_r0 : BitVec 32 := Scalar.addi arg11_r0 c1_i32_79_r0
  let v110_r0 : BitVec 32 := Scalar.select true_80_r0 v109_r0 arg11_r0
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v111_r0 : BitVec 1 := Scalar.cmpi .eq v110_r0 v6
  let c0_i32_81_r0 : BitVec 32 := 0#32
  let v112_r0 : BitVec 32 := Scalar.select v111_r0 c0_i32_81_r0 v110_r0
  let c26_i32_3 : BitVec 32 := 26#32
  let v7 : BitVec 1 := Scalar.cmpi .slt v4 c26_i32_3
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v113_r0 : BitVec 32 := Scalar.addi v112_r0 v11
  let v193_r0 : BitVec 32 := Scalar.muli c1280_i32_123_r0 v113_r0
  ![0, v193_r0.toNat]
def k0_off11 (arg9_r0 : BitVec 32) : Fin 1 → Nat :=
  let c2_i32_122_r0 : BitVec 32 := 2#32
  let v192_r0 : BitVec 32 := Scalar.remui arg9_r0 c2_i32_122_r0
  ![v192_r0.toNat]
def k0_off12 (arg8_r0 : BitVec 32) : Fin 3 → Nat :=
  let c2_i32_123_r0 : BitVec 32 := 2#32
  let v193_r0 : BitVec 32 := Scalar.remui arg8_r0 c2_i32_123_r0
  let c0_i32_124_r0 : BitVec 32 := 0#32
  let c0_i32_125_r0 : BitVec 32 := 0#32
  ![v193_r0.toNat, 0, 0]
def k0_cond4 (i : grid0.Coords) (k0_t2 : Fin (k0_t2_loop i).trips) (arg11_r0 : BitVec 32) : BitVec 1 :=
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let true_76_r0 : BitVec 1 := 1#1
  let c1_i32_75_r0 : BitVec 32 := 1#32
  let v103_r0 : BitVec 32 := Scalar.subi arg11_r0 c1_i32_75_r0
  let v104_r0 : BitVec 32 := Scalar.select true_76_r0 v103_r0 arg11_r0
  let c_m1_i32_77_r0 : BitVec 32 := 4294967295#32
  let v105_r0 : BitVec 1 := Scalar.cmpi .eq v104_r0 c_m1_i32_77_r0
  let c1_i32_78_r0 : BitVec 32 := 1#32
  let v106_r0 : BitVec 32 := Scalar.subi v6 c1_i32_78_r0
  let v107_r0 : BitVec 32 := Scalar.select v105_r0 v106_r0 v104_r0
  let v108_r0 : BitVec 32 := Scalar.addi v107_r0 v11
  let v141_r0 : BitVec 1 := Scalar.cmpi .ne v102_r0 v108_r0
  let c0_i32_45_r0 : BitVec 32 := 0#32
  let c1_i32_50_r0 : BitVec 32 := 1#32
  let arg6_r0 : BitVec 32 := Scf.iv c0_i32_45_r0 c1_i32_50_r0 k0_t2
  let c0_i32_73_r0 : BitVec 32 := 0#32
  let v99_r0 : BitVec 1 := Scalar.cmpi .eq arg6_r0 c0_i32_73_r0
  let v142_r0 : BitVec 1 := Scalar.ori v141_r0 v99_r0
  let c0_i32_97_r0 : BitVec 32 := 0#32
  let v143_r0 : BitVec 1 := Scalar.cmpi .slt arg6_r0 c0_i32_97_r0
  let true_98_r0 : BitVec 1 := 1#1
  let v144_r0 : BitVec 1 := Scalar.xori v143_r0 true_98_r0
  let v145_r0 : BitVec 1 := Scalar.andi v142_r0 v144_r0
  let v146_r0 : BitVec 32 := Scalar.extui v145_r0
  let c0_i32_99_r0 : BitVec 32 := 0#32
  let v147_r0 : BitVec 1 := Scalar.cmpi .ne v146_r0 c0_i32_99_r0
  v147_r0

def k0_off13 (i : grid0.Coords) (arg11_r0 : BitVec 32) : Fin 2 → Nat :=
  let c1_i32_126_r0 : BitVec 32 := 1#32
  let c1280_i32_122_r0 : BitVec 32 := 1280#32
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let v192_r0 : BitVec 32 := Scalar.muli c1280_i32_122_r0 v102_r0
  ![1, v192_r0.toNat]
def k0_off14 (arg8_r0 : BitVec 32) : Fin 1 → Nat :=
  let c2_i32_123_r0 : BitVec 32 := 2#32
  let v193_r0 : BitVec 32 := Scalar.remui arg8_r0 c2_i32_123_r0
  ![v193_r0.toNat]
def k0_off15 (arg10_r0 : BitVec 32) : Fin 3 → Nat :=
  let c2_i32_123_r0 : BitVec 32 := 2#32
  let v193_r0 : BitVec 32 := Scalar.remui arg10_r0 c2_i32_123_r0
  let c0_i32_124_r0 : BitVec 32 := 0#32
  let c0_i32_125_r0 : BitVec 32 := 0#32
  ![v193_r0.toNat, 0, 0]
def k0_cond5 (i : grid0.Coords) (k0_t2 : Fin (k0_t2_loop i).trips) (arg11_r0 : BitVec 32) : BitVec 1 :=
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let true_76_r0 : BitVec 1 := 1#1
  let c1_i32_75_r0 : BitVec 32 := 1#32
  let v103_r0 : BitVec 32 := Scalar.subi arg11_r0 c1_i32_75_r0
  let v104_r0 : BitVec 32 := Scalar.select true_76_r0 v103_r0 arg11_r0
  let c_m1_i32_77_r0 : BitVec 32 := 4294967295#32
  let v105_r0 : BitVec 1 := Scalar.cmpi .eq v104_r0 c_m1_i32_77_r0
  let c1_i32_78_r0 : BitVec 32 := 1#32
  let v106_r0 : BitVec 32 := Scalar.subi v6 c1_i32_78_r0
  let v107_r0 : BitVec 32 := Scalar.select v105_r0 v106_r0 v104_r0
  let v108_r0 : BitVec 32 := Scalar.addi v107_r0 v11
  let v148_r0 : BitVec 1 := Scalar.cmpi .ne v102_r0 v108_r0
  let c0_i32_45_r0 : BitVec 32 := 0#32
  let c1_i32_50_r0 : BitVec 32 := 1#32
  let arg6_r0 : BitVec 32 := Scf.iv c0_i32_45_r0 c1_i32_50_r0 k0_t2
  let c0_i32_73_r0 : BitVec 32 := 0#32
  let v99_r0 : BitVec 1 := Scalar.cmpi .eq arg6_r0 c0_i32_73_r0
  let v149_r0 : BitVec 1 := Scalar.ori v148_r0 v99_r0
  let c0_i32_100_r0 : BitVec 32 := 0#32
  let v150_r0 : BitVec 1 := Scalar.cmpi .slt arg6_r0 c0_i32_100_r0
  let true_101_r0 : BitVec 1 := 1#1
  let v151_r0 : BitVec 1 := Scalar.xori v150_r0 true_101_r0
  let v152_r0 : BitVec 1 := Scalar.andi v149_r0 v151_r0
  let v153_r0 : BitVec 32 := Scalar.extui v152_r0
  let c0_i32_102_r0 : BitVec 32 := 0#32
  let v154_r0 : BitVec 1 := Scalar.cmpi .ne v153_r0 c0_i32_102_r0
  v154_r0

def k0_off16 (i : grid0.Coords) (arg11_r0 : BitVec 32) : Fin 2 → Nat :=
  let c0_i32_126_r0 : BitVec 32 := 0#32
  let c1280_i32_122_r0 : BitVec 32 := 1280#32
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let v192_r0 : BitVec 32 := Scalar.muli c1280_i32_122_r0 v102_r0
  ![0, v192_r0.toNat]
def k0_off17 (arg10_r0 : BitVec 32) : Fin 1 → Nat :=
  let c2_i32_123_r0 : BitVec 32 := 2#32
  let v193_r0 : BitVec 32 := Scalar.remui arg10_r0 c2_i32_123_r0
  ![v193_r0.toNat]

def k0_chk1 (i : grid0.Coords) (k0_t2 : Fin (k0_t2_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h2 : k0_cond2 i k0_t2 arg11_r0 = 1#1), ∀ a, (k0_off6 arg7_r0) a + S1x1x1280.size a ≤ S2x1x1280.size a) ∧
  (∀ (k0_h1 : k0_cond1 i = 1#1), ∀ (k0_h2 : k0_cond2 i k0_t2 arg11_r0 = 1#1), ∀ a, (k0_off7 i arg11_r0) a + S1x1280.size a ≤ S2x320000.size a) ∧
  (∀ (k0_h1 : k0_cond1 i = 1#1), ∀ (k0_h2 : k0_cond2 i k0_t2 arg11_r0 = 1#1), ∀ a, (k0_off8 arg7_r0) a + S1.size a ≤ S2.size a) ∧
  (∀ (k0_h1 : k0_cond1 i = 1#1), ∀ (k0_h3 : k0_cond3 i k0_t2 arg11_r0 = 1#1), ∀ a, (k0_off9 arg9_r0) a + S1x1x1280.size a ≤ S2x1x1280.size a) ∧
  (∀ (k0_h1 : k0_cond1 i = 1#1), ∀ (k0_h3 : k0_cond3 i k0_t2 arg11_r0 = 1#1), ∀ a, (k0_off10 i arg11_r0) a + S1x1280.size a ≤ S1x320000.size a) ∧
  (∀ (k0_h1 : k0_cond1 i = 1#1), ∀ (k0_h3 : k0_cond3 i k0_t2 arg11_r0 = 1#1), ∀ a, (k0_off11 arg9_r0) a + S1.size a ≤ S2.size a) ∧
  (∀ (k0_h1 : k0_cond1 i = 1#1), ∀ (k0_h4 : k0_cond4 i k0_t2 arg11_r0 = 1#1), ∀ a, (k0_off12 arg8_r0) a + S1x1x1280.size a ≤ S2x1x1280.size a) ∧
  (∀ (k0_h1 : k0_cond1 i = 1#1), ∀ (k0_h4 : k0_cond4 i k0_t2 arg11_r0 = 1#1), ∀ a, (k0_off13 i arg11_r0) a + S1x1280.size a ≤ S2x320000.size a) ∧
  (∀ (k0_h1 : k0_cond1 i = 1#1), ∀ (k0_h4 : k0_cond4 i k0_t2 arg11_r0 = 1#1), ∀ a, (k0_off14 arg8_r0) a + S1.size a ≤ S2.size a) ∧
  (∀ (k0_h1 : k0_cond1 i = 1#1), ∀ (k0_h5 : k0_cond5 i k0_t2 arg11_r0 = 1#1), ∀ a, (k0_off15 arg10_r0) a + S1x1x1280.size a ≤ S2x1x1280.size a) ∧
  (∀ (k0_h1 : k0_cond1 i = 1#1), ∀ (k0_h5 : k0_cond5 i k0_t2 arg11_r0 = 1#1), ∀ a, (k0_off16 i arg11_r0) a + S1x1280.size a ≤ S1x320000.size a) ∧
  (∀ (k0_h1 : k0_cond1 i = 1#1), ∀ (k0_h5 : k0_cond5 i k0_t2 arg11_r0 = 1#1), ∀ a, (k0_off17 arg10_r0) a + S1.size a ≤ S2.size a)
instance k0_chk1.dec : ∀ (i : grid0.Coords) (k0_t2 : Fin (k0_t2_loop i).trips) (arg7_r0 : BitVec 32) (arg8_r0 : BitVec 32) (arg9_r0 : BitVec 32) (arg10_r0 : BitVec 32) (arg11_r0 : BitVec 32), Decidable (k0_chk1 i k0_t2 arg7_r0 arg8_r0 arg9_r0 arg10_r0 arg11_r0) := fun i k0_t2 arg7_r0 arg8_r0 arg9_r0 arg10_r0 arg11_r0 => decidable_of_iff' _ (Iff.of_eq (k0_chk1.eq_1 i k0_t2 arg7_r0 arg8_r0 arg9_r0 arg10_r0 arg11_r0))
theorem k0_off6_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h2 : k0_cond2 i k0_t2 arg11_r0 = 1#1), ∀ a, (k0_off6 arg7_r0) a + S1x1x1280.size a ≤ S2x1x1280.size a := fun i k0_t2 arg7_r0 arg8_r0 arg9_r0 arg10_r0 arg11_r0 k0_hw1 k0_h1 k0_h2 => k0_hw1.1 k0_h1 k0_h2
theorem k0_off7_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h2 : k0_cond2 i k0_t2 arg11_r0 = 1#1), ∀ a, (k0_off7 i arg11_r0) a + S1x1280.size a ≤ S2x320000.size a := fun i k0_t2 arg7_r0 arg8_r0 arg9_r0 arg10_r0 arg11_r0 k0_hw1 k0_h1 k0_h2 => k0_hw1.2.1 k0_h1 k0_h2
theorem k0_off8_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h2 : k0_cond2 i k0_t2 arg11_r0 = 1#1), ∀ a, (k0_off8 arg7_r0) a + S1.size a ≤ S2.size a := fun i k0_t2 arg7_r0 arg8_r0 arg9_r0 arg10_r0 arg11_r0 k0_hw1 k0_h1 k0_h2 => k0_hw1.2.2.1 k0_h1 k0_h2
theorem k0_off9_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h3 : k0_cond3 i k0_t2 arg11_r0 = 1#1), ∀ a, (k0_off9 arg9_r0) a + S1x1x1280.size a ≤ S2x1x1280.size a := fun i k0_t2 arg7_r0 arg8_r0 arg9_r0 arg10_r0 arg11_r0 k0_hw1 k0_h1 k0_h3 => k0_hw1.2.2.2.1 k0_h1 k0_h3
theorem k0_off10_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h3 : k0_cond3 i k0_t2 arg11_r0 = 1#1), ∀ a, (k0_off10 i arg11_r0) a + S1x1280.size a ≤ S1x320000.size a := fun i k0_t2 arg7_r0 arg8_r0 arg9_r0 arg10_r0 arg11_r0 k0_hw1 k0_h1 k0_h3 => k0_hw1.2.2.2.2.1 k0_h1 k0_h3
theorem k0_off11_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h3 : k0_cond3 i k0_t2 arg11_r0 = 1#1), ∀ a, (k0_off11 arg9_r0) a + S1.size a ≤ S2.size a := fun i k0_t2 arg7_r0 arg8_r0 arg9_r0 arg10_r0 arg11_r0 k0_hw1 k0_h1 k0_h3 => k0_hw1.2.2.2.2.2.1 k0_h1 k0_h3
theorem k0_off12_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h4 : k0_cond4 i k0_t2 arg11_r0 = 1#1), ∀ a, (k0_off12 arg8_r0) a + S1x1x1280.size a ≤ S2x1x1280.size a := fun i k0_t2 arg7_r0 arg8_r0 arg9_r0 arg10_r0 arg11_r0 k0_hw1 k0_h1 k0_h4 => k0_hw1.2.2.2.2.2.2.1 k0_h1 k0_h4
theorem k0_off13_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h4 : k0_cond4 i k0_t2 arg11_r0 = 1#1), ∀ a, (k0_off13 i arg11_r0) a + S1x1280.size a ≤ S2x320000.size a := fun i k0_t2 arg7_r0 arg8_r0 arg9_r0 arg10_r0 arg11_r0 k0_hw1 k0_h1 k0_h4 => k0_hw1.2.2.2.2.2.2.2.1 k0_h1 k0_h4
theorem k0_off14_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h4 : k0_cond4 i k0_t2 arg11_r0 = 1#1), ∀ a, (k0_off14 arg8_r0) a + S1.size a ≤ S2.size a := fun i k0_t2 arg7_r0 arg8_r0 arg9_r0 arg10_r0 arg11_r0 k0_hw1 k0_h1 k0_h4 => k0_hw1.2.2.2.2.2.2.2.2.1 k0_h1 k0_h4
theorem k0_off15_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h5 : k0_cond5 i k0_t2 arg11_r0 = 1#1), ∀ a, (k0_off15 arg10_r0) a + S1x1x1280.size a ≤ S2x1x1280.size a := fun i k0_t2 arg7_r0 arg8_r0 arg9_r0 arg10_r0 arg11_r0 k0_hw1 k0_h1 k0_h5 => k0_hw1.2.2.2.2.2.2.2.2.2.1 k0_h1 k0_h5
theorem k0_off16_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h5 : k0_cond5 i k0_t2 arg11_r0 = 1#1), ∀ a, (k0_off16 i arg11_r0) a + S1x1280.size a ≤ S1x320000.size a := fun i k0_t2 arg7_r0 arg8_r0 arg9_r0 arg10_r0 arg11_r0 k0_hw1 k0_h1 k0_h5 => k0_hw1.2.2.2.2.2.2.2.2.2.2.1 k0_h1 k0_h5
theorem k0_off17_inb : ∀ (i : grid0.Coords) (k0_t2 : Fin (k0_t2_loop i).trips) (arg7_r0 : BitVec 32) (arg8_r0 : BitVec 32) (arg9_r0 : BitVec 32) (arg10_r0 : BitVec 32) (arg11_r0 : BitVec 32) (k0_hw1 : k0_chk1 i k0_t2 arg7_r0 arg8_r0 arg9_r0 arg10_r0 arg11_r0), ∀ (k0_h1 : k0_cond1 i = 1#1), ∀ (k0_h5 : k0_cond5 i k0_t2 arg11_r0 = 1#1), ∀ a, (k0_off17 arg10_r0) a + S1.size a ≤ S2.size a := fun i k0_t2 arg7_r0 arg8_r0 arg9_r0 arg10_r0 arg11_r0 k0_hw1 k0_h1 k0_h5 => k0_hw1.2.2.2.2.2.2.2.2.2.2.2 k0_h1 k0_h5

@[reducible] def k0_t3_loop : Scf.Loop 32 :=
  let c0_i32_105_r0 : BitVec 32 := 0#32
  let c80_i32_r0 : BitVec 32 := 80#32
  let v157_r0 : BitVec 32 := Scalar.addi c0_i32_105_r0 c80_i32_r0
  let c1_i32_106_r0 : BitVec 32 := 1#32
  ⟨c0_i32_105_r0, v157_r0, c1_i32_106_r0⟩
def k0_off18 (arg8_r0 : BitVec 32) : Fin 3 → Nat :=
  let c2_i32_103_r0 : BitVec 32 := 2#32
  let v155_r0 : BitVec 32 := Scalar.remui arg8_r0 c2_i32_103_r0
  let c0_i32_125_r0 : BitVec 32 := 0#32
  let c0_i32_126_r0 : BitVec 32 := 0#32
  ![v155_r0.toNat, 0, 0]

def k0_chk2 (i : grid0.Coords) (arg8_r0 : BitVec 32) : Prop :=
  (∀ (k0_h1 : k0_cond1 i = 1#1), ∀ a, (k0_off18 arg8_r0) a + S1x1x1280.size a ≤ S2x1x1280.size a)
instance k0_chk2.dec : ∀ (i : grid0.Coords) (arg8_r0 : BitVec 32), Decidable (k0_chk2 i arg8_r0) := fun i arg8_r0 => decidable_of_iff' _ (Iff.of_eq (k0_chk2.eq_1 i arg8_r0))
theorem k0_off18_inb : ∀ (i : grid0.Coords) (arg8_r0 : BitVec 32) (k0_hw2 : k0_chk2 i arg8_r0), ∀ (k0_h1 : k0_cond1 i = 1#1), ∀ a, (k0_off18 arg8_r0) a + S1x1x1280.size a ≤ S2x1x1280.size a := fun i arg8_r0 k0_hw2 k0_h1 => k0_hw2 k0_h1

def k0_off19 (k0_t3 : Fin k0_t3_loop.trips) : Fin 2 → Nat :=
  let c0_i32_124_r0 : BitVec 32 := 0#32
  let v196_r0 : Index := Scalar.indexCast c0_i32_124_r0
  let c0_i32_123_r0 : BitVec 32 := 0#32
  let c0_i32_105_r0 : BitVec 32 := 0#32
  let c1_i32_106_r0 : BitVec 32 := 1#32
  let arg12_r0 : BitVec 32 := Scf.iv c0_i32_105_r0 c1_i32_106_r0 k0_t3
  let c16_i32_122_r0 : BitVec 32 := 16#32
  let v192_r0 : BitVec 32 := Scalar.muli arg12_r0 c16_i32_122_r0
  let v193_r0 : BitVec 32 := Scalar.addi c0_i32_123_r0 v192_r0
  let v197_r0 : Index := Scalar.indexCast v193_r0
  ![0, v197_r0.toNat]
def k0_off20 (arg10_r0 : BitVec 32) : Fin 3 → Nat :=
  let c2_i32_104_r0 : BitVec 32 := 2#32
  let v156_r0 : BitVec 32 := Scalar.remui arg10_r0 c2_i32_104_r0
  let c0_i32_128_r0 : BitVec 32 := 0#32
  let c0_i32_129_r0 : BitVec 32 := 0#32
  ![v156_r0.toNat, 0, 0]

def k0_chk3 (i : grid0.Coords) (arg10_r0 : BitVec 32) : Prop :=
  (∀ (k0_h1 : k0_cond1 i = 1#1), ∀ a, (k0_off20 arg10_r0) a + S1x1x1280.size a ≤ S2x1x1280.size a)
instance k0_chk3.dec : ∀ (i : grid0.Coords) (arg10_r0 : BitVec 32), Decidable (k0_chk3 i arg10_r0) := fun i arg10_r0 => decidable_of_iff' _ (Iff.of_eq (k0_chk3.eq_1 i arg10_r0))
theorem k0_off20_inb : ∀ (i : grid0.Coords) (arg10_r0 : BitVec 32) (k0_hw3 : k0_chk3 i arg10_r0), ∀ (k0_h1 : k0_cond1 i = 1#1), ∀ a, (k0_off20 arg10_r0) a + S1x1x1280.size a ≤ S2x1x1280.size a := fun i arg10_r0 k0_hw3 k0_h1 => k0_hw3 k0_h1

def k0_chk4 (i : grid0.Coords) (v198_r0 : IVec S16 32) : Prop :=
  (∀ (k0_h1 : k0_cond1 i = 1#1), ∀ a x, ((![v198_r0] : Fin 1 → IVec S16 32) a x).toNat < S10000.size a)
instance k0_chk4.dec : ∀ (i : grid0.Coords) (v198_r0 : IVec S16 32), Decidable (k0_chk4 i v198_r0) := fun i v198_r0 => decidable_of_iff' _ (Iff.of_eq (k0_chk4.eq_1 i v198_r0))
theorem k0_idx1_inb : ∀ (i : grid0.Coords) (v198_r0 : IVec S16 32) (k0_hw4 : k0_chk4 i v198_r0), ∀ (k0_h1 : k0_cond1 i = 1#1), ∀ a x, ((![v198_r0] : Fin 1 → IVec S16 32) a x).toNat < S10000.size a := fun i v198_r0 k0_hw4 k0_h1 => k0_hw4 k0_h1
@[reducible] def k0_t4_loop (i : grid0.Coords) : Scf.Loop 32 :=
  let c0_i32_45_r0 : BitVec 32 := 0#32
  let c1_i32_6 : BitVec 32 := 1#32
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v12 : BitVec 32 := Scalar.muli c1_i32_6 v6
  let v60_r0 : BitVec 32 := Scalar.subi v12 c0_i32_45_r0
  let c1_i32_49_r0 : BitVec 32 := 1#32
  let v62_r0 : BitVec 32 := Scalar.divsi v60_r0 c1_i32_49_r0
  let v63_r0 : BitVec 32 := Scalar.muli v62_r0 c1_i32_49_r0
  let v64_r0 : BitVec 32 := Scalar.addi c0_i32_45_r0 v63_r0
  let v61_r0 : BitVec 32 := Scalar.addi c0_i32_45_r0 v60_r0
  let c1_i32_51_r0 : BitVec 32 := 1#32
  ⟨v64_r0, v61_r0, c1_i32_51_r0⟩
def k0_off21 (arg7_r0 : BitVec 32) : Fin 3 → Nat :=
  let c2_i32_122_r0 : BitVec 32 := 2#32
  let v192_r0 : BitVec 32 := Scalar.remui arg7_r0 c2_i32_122_r0
  let c0_i32_124_r0 : BitVec 32 := 0#32
  let c0_i32_125_r0 : BitVec 32 := 0#32
  ![v192_r0.toNat, 0, 0]
def k0_cond10 (i : grid0.Coords) (k0_t4 : Fin (k0_t4_loop i).trips) (arg11_r0 : BitVec 32) : BitVec 1 :=
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let true_80_r0 : BitVec 1 := 1#1
  let c1_i32_79_r0 : BitVec 32 := 1#32
  let v109_r0 : BitVec 32 := Scalar.addi arg11_r0 c1_i32_79_r0
  let v110_r0 : BitVec 32 := Scalar.select true_80_r0 v109_r0 arg11_r0
  let v111_r0 : BitVec 1 := Scalar.cmpi .eq v110_r0 v6
  let c0_i32_81_r0 : BitVec 32 := 0#32
  let v112_r0 : BitVec 32 := Scalar.select v111_r0 c0_i32_81_r0 v110_r0
  let v113_r0 : BitVec 32 := Scalar.addi v112_r0 v11
  let v119_r0 : BitVec 1 := Scalar.cmpi .ne v102_r0 v113_r0
  let c0_i32_45_r0 : BitVec 32 := 0#32
  let c1_i32_6 : BitVec 32 := 1#32
  let v12 : BitVec 32 := Scalar.muli c1_i32_6 v6
  let v60_r0 : BitVec 32 := Scalar.subi v12 c0_i32_45_r0
  let c1_i32_49_r0 : BitVec 32 := 1#32
  let v62_r0 : BitVec 32 := Scalar.divsi v60_r0 c1_i32_49_r0
  let v63_r0 : BitVec 32 := Scalar.muli v62_r0 c1_i32_49_r0
  let v64_r0 : BitVec 32 := Scalar.addi c0_i32_45_r0 v63_r0
  let c1_i32_51_r0 : BitVec 32 := 1#32
  let arg6_r0 : BitVec 32 := Scf.iv v64_r0 c1_i32_51_r0 k0_t4
  let c1_i32_72_r0 : BitVec 32 := 1#32
  let v98_r0 : BitVec 32 := Scalar.muli c1_i32_72_r0 v6
  let c2_i32_85_r0 : BitVec 32 := 2#32
  let v120_r0 : BitVec 32 := Scalar.subi v98_r0 c2_i32_85_r0
  let c1_i32_86_r0 : BitVec 32 := 1#32
  let v121_r0 : BitVec 32 := Scalar.addi v120_r0 c1_i32_86_r0
  let v122_r0 : BitVec 1 := Scalar.cmpi .sge arg6_r0 v121_r0
  let true_87_r0 : BitVec 1 := 1#1
  let v123_r0 : BitVec 1 := Scalar.xori v122_r0 true_87_r0
  let v124_r0 : BitVec 1 := Scalar.andi v119_r0 v123_r0
  let v125_r0 : BitVec 32 := Scalar.extui v124_r0
  let c0_i32_88_r0 : BitVec 32 := 0#32
  let v126_r0 : BitVec 1 := Scalar.cmpi .ne v125_r0 c0_i32_88_r0
  v126_r0

def k0_off22 (i : grid0.Coords) (arg11_r0 : BitVec 32) : Fin 2 → Nat :=
  let c1_i32_126_r0 : BitVec 32 := 1#32
  let c1280_i32_123_r0 : BitVec 32 := 1280#32
  let true_80_r0 : BitVec 1 := 1#1
  let c1_i32_79_r0 : BitVec 32 := 1#32
  let v109_r0 : BitVec 32 := Scalar.addi arg11_r0 c1_i32_79_r0
  let v110_r0 : BitVec 32 := Scalar.select true_80_r0 v109_r0 arg11_r0
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v111_r0 : BitVec 1 := Scalar.cmpi .eq v110_r0 v6
  let c0_i32_81_r0 : BitVec 32 := 0#32
  let v112_r0 : BitVec 32 := Scalar.select v111_r0 c0_i32_81_r0 v110_r0
  let c26_i32_3 : BitVec 32 := 26#32
  let v7 : BitVec 1 := Scalar.cmpi .slt v4 c26_i32_3
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v113_r0 : BitVec 32 := Scalar.addi v112_r0 v11
  let v193_r0 : BitVec 32 := Scalar.muli c1280_i32_123_r0 v113_r0
  ![1, v193_r0.toNat]
def k0_off23 (arg7_r0 : BitVec 32) : Fin 1 → Nat :=
  let c2_i32_122_r0 : BitVec 32 := 2#32
  let v192_r0 : BitVec 32 := Scalar.remui arg7_r0 c2_i32_122_r0
  ![v192_r0.toNat]
def k0_off24 (arg9_r0 : BitVec 32) : Fin 3 → Nat :=
  let c2_i32_122_r0 : BitVec 32 := 2#32
  let v192_r0 : BitVec 32 := Scalar.remui arg9_r0 c2_i32_122_r0
  let c0_i32_124_r0 : BitVec 32 := 0#32
  let c0_i32_125_r0 : BitVec 32 := 0#32
  ![v192_r0.toNat, 0, 0]
def k0_cond11 (i : grid0.Coords) (k0_t4 : Fin (k0_t4_loop i).trips) (arg11_r0 : BitVec 32) : BitVec 1 :=
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let true_80_r0 : BitVec 1 := 1#1
  let c1_i32_79_r0 : BitVec 32 := 1#32
  let v109_r0 : BitVec 32 := Scalar.addi arg11_r0 c1_i32_79_r0
  let v110_r0 : BitVec 32 := Scalar.select true_80_r0 v109_r0 arg11_r0
  let v111_r0 : BitVec 1 := Scalar.cmpi .eq v110_r0 v6
  let c0_i32_81_r0 : BitVec 32 := 0#32
  let v112_r0 : BitVec 32 := Scalar.select v111_r0 c0_i32_81_r0 v110_r0
  let v113_r0 : BitVec 32 := Scalar.addi v112_r0 v11
  let v130_r0 : BitVec 1 := Scalar.cmpi .ne v102_r0 v113_r0
  let c0_i32_45_r0 : BitVec 32 := 0#32
  let c1_i32_6 : BitVec 32 := 1#32
  let v12 : BitVec 32 := Scalar.muli c1_i32_6 v6
  let v60_r0 : BitVec 32 := Scalar.subi v12 c0_i32_45_r0
  let c1_i32_49_r0 : BitVec 32 := 1#32
  let v62_r0 : BitVec 32 := Scalar.divsi v60_r0 c1_i32_49_r0
  let v63_r0 : BitVec 32 := Scalar.muli v62_r0 c1_i32_49_r0
  let v64_r0 : BitVec 32 := Scalar.addi c0_i32_45_r0 v63_r0
  let c1_i32_51_r0 : BitVec 32 := 1#32
  let arg6_r0 : BitVec 32 := Scf.iv v64_r0 c1_i32_51_r0 k0_t4
  let c1_i32_72_r0 : BitVec 32 := 1#32
  let v98_r0 : BitVec 32 := Scalar.muli c1_i32_72_r0 v6
  let c2_i32_91_r0 : BitVec 32 := 2#32
  let v131_r0 : BitVec 32 := Scalar.subi v98_r0 c2_i32_91_r0
  let c1_i32_92_r0 : BitVec 32 := 1#32
  let v132_r0 : BitVec 32 := Scalar.addi v131_r0 c1_i32_92_r0
  let v133_r0 : BitVec 1 := Scalar.cmpi .sge arg6_r0 v132_r0
  let true_93_r0 : BitVec 1 := 1#1
  let v134_r0 : BitVec 1 := Scalar.xori v133_r0 true_93_r0
  let v135_r0 : BitVec 1 := Scalar.andi v130_r0 v134_r0
  let v136_r0 : BitVec 32 := Scalar.extui v135_r0
  let c0_i32_94_r0 : BitVec 32 := 0#32
  let v137_r0 : BitVec 1 := Scalar.cmpi .ne v136_r0 c0_i32_94_r0
  v137_r0

def k0_off25 (i : grid0.Coords) (arg11_r0 : BitVec 32) : Fin 2 → Nat :=
  let c0_i32_126_r0 : BitVec 32 := 0#32
  let c1280_i32_123_r0 : BitVec 32 := 1280#32
  let true_80_r0 : BitVec 1 := 1#1
  let c1_i32_79_r0 : BitVec 32 := 1#32
  let v109_r0 : BitVec 32 := Scalar.addi arg11_r0 c1_i32_79_r0
  let v110_r0 : BitVec 32 := Scalar.select true_80_r0 v109_r0 arg11_r0
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v111_r0 : BitVec 1 := Scalar.cmpi .eq v110_r0 v6
  let c0_i32_81_r0 : BitVec 32 := 0#32
  let v112_r0 : BitVec 32 := Scalar.select v111_r0 c0_i32_81_r0 v110_r0
  let c26_i32_3 : BitVec 32 := 26#32
  let v7 : BitVec 1 := Scalar.cmpi .slt v4 c26_i32_3
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v113_r0 : BitVec 32 := Scalar.addi v112_r0 v11
  let v193_r0 : BitVec 32 := Scalar.muli c1280_i32_123_r0 v113_r0
  ![0, v193_r0.toNat]
def k0_off26 (arg9_r0 : BitVec 32) : Fin 1 → Nat :=
  let c2_i32_122_r0 : BitVec 32 := 2#32
  let v192_r0 : BitVec 32 := Scalar.remui arg9_r0 c2_i32_122_r0
  ![v192_r0.toNat]
def k0_off27 (arg8_r0 : BitVec 32) : Fin 3 → Nat :=
  let c2_i32_123_r0 : BitVec 32 := 2#32
  let v193_r0 : BitVec 32 := Scalar.remui arg8_r0 c2_i32_123_r0
  let c0_i32_124_r0 : BitVec 32 := 0#32
  let c0_i32_125_r0 : BitVec 32 := 0#32
  ![v193_r0.toNat, 0, 0]
def k0_cond12 (i : grid0.Coords) (k0_t4 : Fin (k0_t4_loop i).trips) (arg11_r0 : BitVec 32) : BitVec 1 :=
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let true_76_r0 : BitVec 1 := 1#1
  let c1_i32_75_r0 : BitVec 32 := 1#32
  let v103_r0 : BitVec 32 := Scalar.subi arg11_r0 c1_i32_75_r0
  let v104_r0 : BitVec 32 := Scalar.select true_76_r0 v103_r0 arg11_r0
  let c_m1_i32_77_r0 : BitVec 32 := 4294967295#32
  let v105_r0 : BitVec 1 := Scalar.cmpi .eq v104_r0 c_m1_i32_77_r0
  let c1_i32_78_r0 : BitVec 32 := 1#32
  let v106_r0 : BitVec 32 := Scalar.subi v6 c1_i32_78_r0
  let v107_r0 : BitVec 32 := Scalar.select v105_r0 v106_r0 v104_r0
  let v108_r0 : BitVec 32 := Scalar.addi v107_r0 v11
  let v141_r0 : BitVec 1 := Scalar.cmpi .ne v102_r0 v108_r0
  let c0_i32_45_r0 : BitVec 32 := 0#32
  let c1_i32_6 : BitVec 32 := 1#32
  let v12 : BitVec 32 := Scalar.muli c1_i32_6 v6
  let v60_r0 : BitVec 32 := Scalar.subi v12 c0_i32_45_r0
  let c1_i32_49_r0 : BitVec 32 := 1#32
  let v62_r0 : BitVec 32 := Scalar.divsi v60_r0 c1_i32_49_r0
  let v63_r0 : BitVec 32 := Scalar.muli v62_r0 c1_i32_49_r0
  let v64_r0 : BitVec 32 := Scalar.addi c0_i32_45_r0 v63_r0
  let c1_i32_51_r0 : BitVec 32 := 1#32
  let arg6_r0 : BitVec 32 := Scf.iv v64_r0 c1_i32_51_r0 k0_t4
  let c0_i32_73_r0 : BitVec 32 := 0#32
  let v99_r0 : BitVec 1 := Scalar.cmpi .eq arg6_r0 c0_i32_73_r0
  let v142_r0 : BitVec 1 := Scalar.ori v141_r0 v99_r0
  let c0_i32_97_r0 : BitVec 32 := 0#32
  let v143_r0 : BitVec 1 := Scalar.cmpi .slt arg6_r0 c0_i32_97_r0
  let true_98_r0 : BitVec 1 := 1#1
  let v144_r0 : BitVec 1 := Scalar.xori v143_r0 true_98_r0
  let v145_r0 : BitVec 1 := Scalar.andi v142_r0 v144_r0
  let v146_r0 : BitVec 32 := Scalar.extui v145_r0
  let c0_i32_99_r0 : BitVec 32 := 0#32
  let v147_r0 : BitVec 1 := Scalar.cmpi .ne v146_r0 c0_i32_99_r0
  v147_r0

def k0_off28 (i : grid0.Coords) (arg11_r0 : BitVec 32) : Fin 2 → Nat :=
  let c1_i32_126_r0 : BitVec 32 := 1#32
  let c1280_i32_122_r0 : BitVec 32 := 1280#32
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let v192_r0 : BitVec 32 := Scalar.muli c1280_i32_122_r0 v102_r0
  ![1, v192_r0.toNat]
def k0_off29 (arg8_r0 : BitVec 32) : Fin 1 → Nat :=
  let c2_i32_123_r0 : BitVec 32 := 2#32
  let v193_r0 : BitVec 32 := Scalar.remui arg8_r0 c2_i32_123_r0
  ![v193_r0.toNat]
def k0_off30 (arg10_r0 : BitVec 32) : Fin 3 → Nat :=
  let c2_i32_123_r0 : BitVec 32 := 2#32
  let v193_r0 : BitVec 32 := Scalar.remui arg10_r0 c2_i32_123_r0
  let c0_i32_124_r0 : BitVec 32 := 0#32
  let c0_i32_125_r0 : BitVec 32 := 0#32
  ![v193_r0.toNat, 0, 0]
def k0_cond13 (i : grid0.Coords) (k0_t4 : Fin (k0_t4_loop i).trips) (arg11_r0 : BitVec 32) : BitVec 1 :=
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let true_76_r0 : BitVec 1 := 1#1
  let c1_i32_75_r0 : BitVec 32 := 1#32
  let v103_r0 : BitVec 32 := Scalar.subi arg11_r0 c1_i32_75_r0
  let v104_r0 : BitVec 32 := Scalar.select true_76_r0 v103_r0 arg11_r0
  let c_m1_i32_77_r0 : BitVec 32 := 4294967295#32
  let v105_r0 : BitVec 1 := Scalar.cmpi .eq v104_r0 c_m1_i32_77_r0
  let c1_i32_78_r0 : BitVec 32 := 1#32
  let v106_r0 : BitVec 32 := Scalar.subi v6 c1_i32_78_r0
  let v107_r0 : BitVec 32 := Scalar.select v105_r0 v106_r0 v104_r0
  let v108_r0 : BitVec 32 := Scalar.addi v107_r0 v11
  let v148_r0 : BitVec 1 := Scalar.cmpi .ne v102_r0 v108_r0
  let c0_i32_45_r0 : BitVec 32 := 0#32
  let c1_i32_6 : BitVec 32 := 1#32
  let v12 : BitVec 32 := Scalar.muli c1_i32_6 v6
  let v60_r0 : BitVec 32 := Scalar.subi v12 c0_i32_45_r0
  let c1_i32_49_r0 : BitVec 32 := 1#32
  let v62_r0 : BitVec 32 := Scalar.divsi v60_r0 c1_i32_49_r0
  let v63_r0 : BitVec 32 := Scalar.muli v62_r0 c1_i32_49_r0
  let v64_r0 : BitVec 32 := Scalar.addi c0_i32_45_r0 v63_r0
  let c1_i32_51_r0 : BitVec 32 := 1#32
  let arg6_r0 : BitVec 32 := Scf.iv v64_r0 c1_i32_51_r0 k0_t4
  let c0_i32_73_r0 : BitVec 32 := 0#32
  let v99_r0 : BitVec 1 := Scalar.cmpi .eq arg6_r0 c0_i32_73_r0
  let v149_r0 : BitVec 1 := Scalar.ori v148_r0 v99_r0
  let c0_i32_100_r0 : BitVec 32 := 0#32
  let v150_r0 : BitVec 1 := Scalar.cmpi .slt arg6_r0 c0_i32_100_r0
  let true_101_r0 : BitVec 1 := 1#1
  let v151_r0 : BitVec 1 := Scalar.xori v150_r0 true_101_r0
  let v152_r0 : BitVec 1 := Scalar.andi v149_r0 v151_r0
  let v153_r0 : BitVec 32 := Scalar.extui v152_r0
  let c0_i32_102_r0 : BitVec 32 := 0#32
  let v154_r0 : BitVec 1 := Scalar.cmpi .ne v153_r0 c0_i32_102_r0
  v154_r0

def k0_off31 (i : grid0.Coords) (arg11_r0 : BitVec 32) : Fin 2 → Nat :=
  let c0_i32_126_r0 : BitVec 32 := 0#32
  let c1280_i32_122_r0 : BitVec 32 := 1280#32
  let c0_i32_2 : BitVec 32 := 0#32
  let arg1 : BitVec 32 := BitVec.ofNat 32 (i 1).val
  let c1_i32_1 : BitVec 32 := 1#32
  let v1 : BitVec 32 := Scalar.muli arg1 c1_i32_1
  let v2 : BitVec 32 := Scalar.addi c0_i32_2 v1
  let arg0 : BitVec 32 := BitVec.ofNat 32 (i 0).val
  let c16_i32 : BitVec 32 := 16#32
  let v3 : BitVec 32 := Scalar.muli arg0 c16_i32
  let v4 : BitVec 32 := Scalar.addi v2 v3
  let c26_i32_3 : BitVec 32 := 26#32
  let v7 : BitVec 1 := Scalar.cmpi .slt v4 c26_i32_3
  let c26_i32 : BitVec 32 := 26#32
  let v5 : BitVec 1 := Scalar.cmpi .slt v4 c26_i32
  let c8_i32 : BitVec 32 := 8#32
  let c7_i32 : BitVec 32 := 7#32
  let v6 : BitVec 32 := Scalar.select v5 c8_i32 c7_i32
  let v8 : BitVec 32 := Scalar.muli v4 v6
  let c7_i32_4 : BitVec 32 := 7#32
  let v9 : BitVec 32 := Scalar.muli v4 c7_i32_4
  let c26_i32_5 : BitVec 32 := 26#32
  let v10 : BitVec 32 := Scalar.addi v9 c26_i32_5
  let v11 : BitVec 32 := Scalar.select v7 v8 v10
  let v102_r0 : BitVec 32 := Scalar.addi arg11_r0 v11
  let v192_r0 : BitVec 32 := Scalar.muli c1280_i32_122_r0 v102_r0
  ![0, v192_r0.toNat]
def k0_off32 (arg10_r0 : BitVec 32) : Fin 1 → Nat :=
  let c2_i32_123_r0 : BitVec 32 := 2#32
  let v193_r0 : BitVec 32 := Scalar.remui arg10_r0 c2_i32_123_r0
  ![v193_r0.toNat]

def k0_chk5 (i : grid0.Coords) (k0_t4 : Fin (k0_t4_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h10 : k0_cond10 i k0_t4 arg11_r0 = 1#1), ∀ a, (k0_off21 arg7_r0) a + S1x1x1280.size a ≤ S2x1x1280.size a) ∧
  (∀ (k0_h1 : k0_cond1 i = 1#1), ∀ (k0_h10 : k0_cond10 i k0_t4 arg11_r0 = 1#1), ∀ a, (k0_off22 i arg11_r0) a + S1x1280.size a ≤ S2x320000.size a) ∧
  (∀ (k0_h1 : k0_cond1 i = 1#1), ∀ (k0_h10 : k0_cond10 i k0_t4 arg11_r0 = 1#1), ∀ a, (k0_off23 arg7_r0) a + S1.size a ≤ S2.size a) ∧
  (∀ (k0_h1 : k0_cond1 i = 1#1), ∀ (k0_h11 : k0_cond11 i k0_t4 arg11_r0 = 1#1), ∀ a, (k0_off24 arg9_r0) a + S1x1x1280.size a ≤ S2x1x1280.size a) ∧
  (∀ (k0_h1 : k0_cond1 i = 1#1), ∀ (k0_h11 : k0_cond11 i k0_t4 arg11_r0 = 1#1), ∀ a, (k0_off25 i arg11_r0) a + S1x1280.size a ≤ S1x320000.size a) ∧
  (∀ (k0_h1 : k0_cond1 i = 1#1), ∀ (k0_h11 : k0_cond11 i k0_t4 arg11_r0 = 1#1), ∀ a, (k0_off26 arg9_r0) a + S1.size a ≤ S2.size a) ∧
  (∀ (k0_h1 : k0_cond1 i = 1#1), ∀ (k0_h12 : k0_cond12 i k0_t4 arg11_r0 = 1#1), ∀ a, (k0_off27 arg8_r0) a + S1x1x1280.size a ≤ S2x1x1280.size a) ∧
  (∀ (k0_h1 : k0_cond1 i = 1#1), ∀ (k0_h12 : k0_cond12 i k0_t4 arg11_r0 = 1#1), ∀ a, (k0_off28 i arg11_r0) a + S1x1280.size a ≤ S2x320000.size a) ∧
  (∀ (k0_h1 : k0_cond1 i = 1#1), ∀ (k0_h12 : k0_cond12 i k0_t4 arg11_r0 = 1#1), ∀ a, (k0_off29 arg8_r0) a + S1.size a ≤ S2.size a) ∧
  (∀ (k0_h1 : k0_cond1 i = 1#1), ∀ (k0_h13 : k0_cond13 i k0_t4 arg11_r0 = 1#1), ∀ a, (k0_off30 arg10_r0) a + S1x1x1280.size a ≤ S2x1x1280.size a) ∧
  (∀ (k0_h1 : k0_cond1 i = 1#1), ∀ (k0_h13 : k0_cond13 i k0_t4 arg11_r0 = 1#1), ∀ a, (k0_off31 i arg11_r0) a + S1x1280.size a ≤ S1x320000.size a) ∧
  (∀ (k0_h1 : k0_cond1 i = 1#1), ∀ (k0_h13 : k0_cond13 i k0_t4 arg11_r0 = 1#1), ∀ a, (k0_off32 arg10_r0) a + S1.size a ≤ S2.size a)
instance k0_chk5.dec : ∀ (i : grid0.Coords) (k0_t4 : Fin (k0_t4_loop i).trips) (arg7_r0 : BitVec 32) (arg8_r0 : BitVec 32) (arg9_r0 : BitVec 32) (arg10_r0 : BitVec 32) (arg11_r0 : BitVec 32), Decidable (k0_chk5 i k0_t4 arg7_r0 arg8_r0 arg9_r0 arg10_r0 arg11_r0) := fun i k0_t4 arg7_r0 arg8_r0 arg9_r0 arg10_r0 arg11_r0 => decidable_of_iff' _ (Iff.of_eq (k0_chk5.eq_1 i k0_t4 arg7_r0 arg8_r0 arg9_r0 arg10_r0 arg11_r0))
theorem k0_off21_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h10 : k0_cond10 i k0_t4 arg11_r0 = 1#1), ∀ a, (k0_off21 arg7_r0) a + S1x1x1280.size a ≤ S2x1x1280.size a := fun i k0_t4 arg7_r0 arg8_r0 arg9_r0 arg10_r0 arg11_r0 k0_hw5 k0_h1 k0_h10 => k0_hw5.1 k0_h1 k0_h10
theorem k0_off22_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h10 : k0_cond10 i k0_t4 arg11_r0 = 1#1), ∀ a, (k0_off22 i arg11_r0) a + S1x1280.size a ≤ S2x320000.size a := fun i k0_t4 arg7_r0 arg8_r0 arg9_r0 arg10_r0 arg11_r0 k0_hw5 k0_h1 k0_h10 => k0_hw5.2.1 k0_h1 k0_h10
theorem k0_off23_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h10 : k0_cond10 i k0_t4 arg11_r0 = 1#1), ∀ a, (k0_off23 arg7_r0) a + S1.size a ≤ S2.size a := fun i k0_t4 arg7_r0 arg8_r0 arg9_r0 arg10_r0 arg11_r0 k0_hw5 k0_h1 k0_h10 => k0_hw5.2.2.1 k0_h1 k0_h10
theorem k0_off24_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h11 : k0_cond11 i k0_t4 arg11_r0 = 1#1), ∀ a, (k0_off24 arg9_r0) a + S1x1x1280.size a ≤ S2x1x1280.size a := fun i k0_t4 arg7_r0 arg8_r0 arg9_r0 arg10_r0 arg11_r0 k0_hw5 k0_h1 k0_h11 => k0_hw5.2.2.2.1 k0_h1 k0_h11
theorem k0_off25_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h11 : k0_cond11 i k0_t4 arg11_r0 = 1#1), ∀ a, (k0_off25 i arg11_r0) a + S1x1280.size a ≤ S1x320000.size a := fun i k0_t4 arg7_r0 arg8_r0 arg9_r0 arg10_r0 arg11_r0 k0_hw5 k0_h1 k0_h11 => k0_hw5.2.2.2.2.1 k0_h1 k0_h11
theorem k0_off26_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h11 : k0_cond11 i k0_t4 arg11_r0 = 1#1), ∀ a, (k0_off26 arg9_r0) a + S1.size a ≤ S2.size a := fun i k0_t4 arg7_r0 arg8_r0 arg9_r0 arg10_r0 arg11_r0 k0_hw5 k0_h1 k0_h11 => k0_hw5.2.2.2.2.2.1 k0_h1 k0_h11
theorem k0_off27_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h12 : k0_cond12 i k0_t4 arg11_r0 = 1#1), ∀ a, (k0_off27 arg8_r0) a + S1x1x1280.size a ≤ S2x1x1280.size a := fun i k0_t4 arg7_r0 arg8_r0 arg9_r0 arg10_r0 arg11_r0 k0_hw5 k0_h1 k0_h12 => k0_hw5.2.2.2.2.2.2.1 k0_h1 k0_h12
theorem k0_off28_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h12 : k0_cond12 i k0_t4 arg11_r0 = 1#1), ∀ a, (k0_off28 i arg11_r0) a + S1x1280.size a ≤ S2x320000.size a := fun i k0_t4 arg7_r0 arg8_r0 arg9_r0 arg10_r0 arg11_r0 k0_hw5 k0_h1 k0_h12 => k0_hw5.2.2.2.2.2.2.2.1 k0_h1 k0_h12
theorem k0_off29_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h12 : k0_cond12 i k0_t4 arg11_r0 = 1#1), ∀ a, (k0_off29 arg8_r0) a + S1.size a ≤ S2.size a := fun i k0_t4 arg7_r0 arg8_r0 arg9_r0 arg10_r0 arg11_r0 k0_hw5 k0_h1 k0_h12 => k0_hw5.2.2.2.2.2.2.2.2.1 k0_h1 k0_h12
theorem k0_off30_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h13 : k0_cond13 i k0_t4 arg11_r0 = 1#1), ∀ a, (k0_off30 arg10_r0) a + S1x1x1280.size a ≤ S2x1x1280.size a := fun i k0_t4 arg7_r0 arg8_r0 arg9_r0 arg10_r0 arg11_r0 k0_hw5 k0_h1 k0_h13 => k0_hw5.2.2.2.2.2.2.2.2.2.1 k0_h1 k0_h13
theorem k0_off31_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h13 : k0_cond13 i k0_t4 arg11_r0 = 1#1), ∀ a, (k0_off31 i arg11_r0) a + S1x1280.size a ≤ S1x320000.size a := fun i k0_t4 arg7_r0 arg8_r0 arg9_r0 arg10_r0 arg11_r0 k0_hw5 k0_h1 k0_h13 => k0_hw5.2.2.2.2.2.2.2.2.2.2.1 k0_h1 k0_h13
theorem k0_off32_inb : ∀ (i : grid0.Coords) (k0_t4 : Fin (k0_t4_loop i).trips) (arg7_r0 : BitVec 32) (arg8_r0 : BitVec 32) (arg9_r0 : BitVec 32) (arg10_r0 : BitVec 32) (arg11_r0 : BitVec 32) (k0_hw5 : k0_chk5 i k0_t4 arg7_r0 arg8_r0 arg9_r0 arg10_r0 arg11_r0), ∀ (k0_h1 : k0_cond1 i = 1#1), ∀ (k0_h13 : k0_cond13 i k0_t4 arg11_r0 = 1#1), ∀ a, (k0_off32 arg10_r0) a + S1.size a ≤ S2.size a := fun i k0_t4 arg7_r0 arg8_r0 arg9_r0 arg10_r0 arg11_r0 k0_hw5 k0_h1 k0_h13 => k0_hw5.2.2.2.2.2.2.2.2.2.2.2 k0_h1 k0_h13

@[reducible] def k0_t5_loop : Scf.Loop 32 :=
  let c0_i32_105_r0 : BitVec 32 := 0#32
  let c80_i32_r0 : BitVec 32 := 80#32
  let v157_r0 : BitVec 32 := Scalar.addi c0_i32_105_r0 c80_i32_r0
  let c1_i32_106_r0 : BitVec 32 := 1#32
  ⟨c0_i32_105_r0, v157_r0, c1_i32_106_r0⟩
def k0_off33 (arg8_r0 : BitVec 32) : Fin 3 → Nat :=
  let c2_i32_103_r0 : BitVec 32 := 2#32
  let v155_r0 : BitVec 32 := Scalar.remui arg8_r0 c2_i32_103_r0
  let c0_i32_125_r0 : BitVec 32 := 0#32
  let c0_i32_126_r0 : BitVec 32 := 0#32
  ![v155_r0.toNat, 0, 0]

def k0_chk6 (i : grid0.Coords) (arg8_r0 : BitVec 32) : Prop :=
  (∀ (k0_h1 : k0_cond1 i = 1#1), ∀ a, (k0_off33 arg8_r0) a + S1x1x1280.size a ≤ S2x1x1280.size a)
instance k0_chk6.dec : ∀ (i : grid0.Coords) (arg8_r0 : BitVec 32), Decidable (k0_chk6 i arg8_r0) := fun i arg8_r0 => decidable_of_iff' _ (Iff.of_eq (k0_chk6.eq_1 i arg8_r0))
theorem k0_off33_inb : ∀ (i : grid0.Coords) (arg8_r0 : BitVec 32) (k0_hw6 : k0_chk6 i arg8_r0), ∀ (k0_h1 : k0_cond1 i = 1#1), ∀ a, (k0_off33 arg8_r0) a + S1x1x1280.size a ≤ S2x1x1280.size a := fun i arg8_r0 k0_hw6 k0_h1 => k0_hw6 k0_h1

def k0_off34 (k0_t5 : Fin k0_t5_loop.trips) : Fin 2 → Nat :=
  let c0_i32_124_r0 : BitVec 32 := 0#32
  let v196_r0 : Index := Scalar.indexCast c0_i32_124_r0
  let c0_i32_123_r0 : BitVec 32 := 0#32
  let c0_i32_105_r0 : BitVec 32 := 0#32
  let c1_i32_106_r0 : BitVec 32 := 1#32
  let arg12_r0 : BitVec 32 := Scf.iv c0_i32_105_r0 c1_i32_106_r0 k0_t5
  let c16_i32_122_r0 : BitVec 32 := 16#32
  let v192_r0 : BitVec 32 := Scalar.muli arg12_r0 c16_i32_122_r0
  let v193_r0 : BitVec 32 := Scalar.addi c0_i32_123_r0 v192_r0
  let v197_r0 : Index := Scalar.indexCast v193_r0
  ![0, v197_r0.toNat]
def k0_off35 (arg10_r0 : BitVec 32) : Fin 3 → Nat :=
  let c2_i32_104_r0 : BitVec 32 := 2#32
  let v156_r0 : BitVec 32 := Scalar.remui arg10_r0 c2_i32_104_r0
  let c0_i32_128_r0 : BitVec 32 := 0#32
  let c0_i32_129_r0 : BitVec 32 := 0#32
  ![v156_r0.toNat, 0, 0]

def k0_chk7 (i : grid0.Coords) (arg10_r0 : BitVec 32) : Prop :=
  (∀ (k0_h1 : k0_cond1 i = 1#1), ∀ a, (k0_off35 arg10_r0) a + S1x1x1280.size a ≤ S2x1x1280.size a)
instance k0_chk7.dec : ∀ (i : grid0.Coords) (arg10_r0 : BitVec 32), Decidable (k0_chk7 i arg10_r0) := fun i arg10_r0 => decidable_of_iff' _ (Iff.of_eq (k0_chk7.eq_1 i arg10_r0))
theorem k0_off35_inb : ∀ (i : grid0.Coords) (arg10_r0 : BitVec 32) (k0_hw7 : k0_chk7 i arg10_r0), ∀ (k0_h1 : k0_cond1 i = 1#1), ∀ a, (k0_off35 arg10_r0) a + S1x1x1280.size a ≤ S2x1x1280.size a := fun i arg10_r0 k0_hw7 k0_h1 => k0_hw7 k0_h1

def k0_chk8 (i : grid0.Coords) (v198_r0 : IVec S16 32) : Prop :=
  (∀ (k0_h1 : k0_cond1 i = 1#1), ∀ a x, ((![v198_r0] : Fin 1 → IVec S16 32) a x).toNat < S10000.size a)
instance k0_chk8.dec : ∀ (i : grid0.Coords) (v198_r0 : IVec S16 32), Decidable (k0_chk8 i v198_r0) := fun i v198_r0 => decidable_of_iff' _ (Iff.of_eq (k0_chk8.eq_1 i v198_r0))
theorem k0_idx2_inb : ∀ (i : grid0.Coords) (v198_r0 : IVec S16 32) (k0_hw8 : k0_chk8 i v198_r0), ∀ (k0_h1 : k0_cond1 i = 1#1), ∀ a x, ((![v198_r0] : Fin 1 → IVec S16 32) a x).toNat < S10000.size a := fun i v198_r0 k0_hw8 k0_h1 => k0_hw8 k0_h1
def k0_off36 (i : grid0.Coords) : Fin 2 → Nat :=
  let arg1 : BitVec 32 := BitVec.ofNat 32 (i 1).val
  let c2_i32 : BitVec 32 := 2#32
  let v13 : BitVec 32 := Scalar.muli arg1 c2_i32
  let arg0 : BitVec 32 := BitVec.ofNat 32 (i 0).val
  let v14 : BitVec 32 := Scalar.addi v13 arg0
  let c0_i32_7_r1 : BitVec 32 := 0#32
  ![v14.toNat, 0]
abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x10000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10000x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S320000x1_S1x320000 : S320000x1.ShapeCasts S1x320000
  h_S16 : 0 < S16.numel
  squeezes_S1x1x1280_S1x1280 : S1x1x1280.Squeezes S1x1280
  squeezes_S1_S_ : S1.Squeezes S_
  h_S1x16 : 0 < S1x16.numel
  shapeCasts_S1x16_S16 : S1x16.ShapeCasts S16
  h_S10000 : 0 < S10000.numel
  squeezes_S1x10000_S10000 : S1x10000.Squeezes S10000
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128_S1x128 : S128.ShapeCasts S1x128
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  inb_S10000x1_S10000x1_0_0 : ∀ a, (![0, 0] : Fin 2 → Nat) a + S10000x1.size a ≤ S10000x1.size a
  h_S10000x1 : 0 < S10000x1.numel
  shapeCasts_S10000x128_S10000x128 : S10000x128.ShapeCasts S10000x128
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  dot_S10000x128_S128x128_S10000x128_1_1_0_0_n_n_wf : DotDims.WF S10000x128 S128x128 S10000x128 [1] [1] [0] [0] [] []
  dot_S32x10000_S32x1_S10000x1_0_0_1_1_n_n_wf : DotDims.WF S32x10000 S32x1 S10000x1 [0] [0] [1] [1] [] []
  hcc0_scoped1 : 0 + S2.numel ≤ 13
  hcc0_scoped3 : 2 + S2.numel ≤ 13
  hcc0_scoped4 : 4 + S_.numel ≤ 13
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16.size a ≤ S10000.size a
  k0_off2_inb : ∀ i : grid0.Coords, ∀ (k0_h1 : k0_cond1 i = 1#1), ∀ a, k0_off2 a + S1x1x1280.size a ≤ S2x1x1280.size a
  k0_off3_inb : ∀ i : grid0.Coords, ∀ (k0_h1 : k0_cond1 i = 1#1), ∀ a, (k0_off3 i) a + S1x1280.size a ≤ S2x320000.size a
  k0_off4_inb : ∀ i : grid0.Coords, ∀ (k0_h1 : k0_cond1 i = 1#1), ∀ a, k0_off4 a + S1.size a ≤ S2.size a
  k0_off5_inb : ∀ i : grid0.Coords, ∀ (k0_h1 : k0_cond1 i = 1#1), ∀ a, (k0_off5 i) a + S1x1280.size a ≤ S1x320000.size a
  k0_t2_ok : ∀ i : grid0.Coords, ∀ (k0_h1 : k0_cond1 i = 1#1), (k0_t2_loop i).OK
  k0_t3_ok : ∀ i : grid0.Coords, ∀ (k0_h1 : k0_cond1 i = 1#1), k0_t3_loop.OK
  k0_off19_inb : ∀ (i : grid0.Coords) (k0_t3 : Fin k0_t3_loop.trips), ∀ (k0_h1 : k0_cond1 i = 1#1), ∀ a, (k0_off19 k0_t3) a + S1x16.size a ≤ S1x1280.size a
  k0_t4_ok : ∀ i : grid0.Coords, ∀ (k0_h1 : k0_cond1 i = 1#1), (k0_t4_loop i).OK
  k0_t5_ok : ∀ i : grid0.Coords, ∀ (k0_h1 : k0_cond1 i = 1#1), k0_t5_loop.OK
  k0_off34_inb : ∀ (i : grid0.Coords) (k0_t5 : Fin k0_t5_loop.trips), ∀ (k0_h1 : k0_cond1 i = 1#1), ∀ a, (k0_off34 k0_t5) a + S1x16.size a ≤ S1x1280.size a
  k0_off36_inb : ∀ i : grid0.Coords, ∀ a, (k0_off36 i) a + S1x10000.size a ≤ S32x10000.size a
  hstage1_0 : ∀ j, (stage1_0 j).IsWhole
  hstage1_1 : ∀ j, (stage1_1 j).IsWhole
  hstage1_2 : ∀ j, (stage1_2 j).IsWhole
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole

variable [Facts₀]

abbrev cc0_scoped1 : DmaSems sig S2 := SemArray.consecutive 0 S2 hcc0_scoped1
abbrev cc0_scoped3 : DmaSems sig S2 := SemArray.consecutive 2 S2 hcc0_scoped3
abbrev cc0_scoped4 : DmaSems sig S_ := SemArray.consecutive 4 S_ hcc0_scoped4
def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S32x10000_S32x1_S10000x1_0_0_1_1_n_n : DotDims S32x10000 S32x1 S10000x1 where
  lhsContracting := [0]
  rhsContracting := [0]
  lhsNonContracting := [1]
  rhsNonContracting := [1]
  lhsBatch := []
  rhsBatch := []
  wf := dot_S32x10000_S32x1_S10000x1_0_0_1_1_n_n_wf

abbrev win1_0 : Pipeline.Window sig grid1 :=
  Pipeline.Window.whole (Memref.whole main_arg0) false false (stage1_0 0) (sem1_0 0) (Memref.isWhole_whole _) (hstage1_0 0)

abbrev win1_1 : Pipeline.Window sig grid1 :=
  Pipeline.Window.whole (Memref.whole main_arg4) false false (stage1_1 0) (sem1_1 0) (Memref.isWhole_whole _) (hstage1_1 0)

abbrev win1_2 : Pipeline.Window sig grid1 :=
  Pipeline.Window.whole (Memref.whole main_v2) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v2) false false (stage2_0 0) (sem2_0 0) (Memref.isWhole_whole _) (hstage2_0 0)

abbrev win2_1 : Pipeline.Window sig grid2 :=
  Pipeline.Window.whole (Memref.whole main_v1) false false (stage2_1 0) (sem2_1 0) (Memref.isWhole_whole _) (hstage2_1 0)

abbrev win2_2 : Pipeline.Window sig grid2 :=
  Pipeline.Window.whole (Memref.whole main_arg2) false false (stage2_2 0) (sem2_2 0) (Memref.isWhole_whole _) (hstage2_2 0)

abbrev win2_3 : Pipeline.Window sig grid2 :=
  Pipeline.Window.whole (Memref.whole main_v3) false false (stage2_3 0) (sem2_3 0) (Memref.isWhole_whole _) (hstage2_3 0)

abbrev win2_4 : Pipeline.Window sig grid2 :=
  Pipeline.Window.whole (Memref.whole main_v4) true false (stage2_4 0) (sem2_4 0) (Memref.isWhole_whole _) (hstage2_4 0)

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where
  halias2_4 : Pipeline.Aliased win2 0 4

variable [Facts]
-- ==== ReferenceIdeal.lean ====
abbrev S10000x128 : Shape := ⟨2, ![10000, 128]⟩
abbrev S320000x1 : Shape := ⟨2, ![320000, 1]⟩
abbrev S10000x1 : Shape := ⟨2, ![10000, 1]⟩
abbrev S2x320000 : Shape := ⟨2, ![2, 320000]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S320000x128 : Shape := ⟨2, ![320000, 128]⟩
abbrev S1x128 : Shape := ⟨2, ![1, 128]⟩

abbrev nBuf : Space → Nat
  | .hbm => 30
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S320000x1, .f32⟩
  | .hbm, ⟨2, _⟩ => ⟨S10000x1, .f32⟩
  | .hbm, ⟨3, _⟩ => ⟨S2x320000, .i32⟩
  | .hbm, ⟨4, _⟩ => ⟨S128x128, .f32⟩
  | .hbm, ⟨5, _⟩ => ⟨S128, .f32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x128, .f32⟩
  | .hbm, ⟨17, _⟩ => ⟨S320000x128, .f32⟩
  | .hbm, ⟨18, _⟩ => ⟨S320000x128, .f32⟩
  | .hbm, ⟨19, _⟩ => ⟨S_, .f32⟩
  | .hbm, ⟨20, _⟩ => ⟨S10000x128, .f32⟩
  | .hbm, ⟨21, _⟩ => ⟨S320000x1, .i32⟩
  | .hbm, ⟨22, _⟩ => ⟨S10000x128, .f32⟩
  | .hbm, ⟨23, _⟩ => ⟨S128x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x128, .f32⟩
  | .hbm, ⟨29, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  slices_S2x320000_S1x320000_1_0 : S2x320000.Slices ![1, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x128_0_1 : S320000x1.BroadcastsInDim S320000x128 (![0, 1] : Fin 2 → Fin S320000x128.rank)
  bcast_S_S10000x128 : S_.BroadcastsInDim S10000x128 (![] : Fin 0 → Fin S10000x128.rank)
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000x1_S10000x128_0_1 : S10000x1.BroadcastsInDim S10000x128 (![0, 1] : Fin 2 → Fin S10000x128.rank)
  gather_S10000x128_S320000x1_S320000x128_1_0_n_n_0_1_1128_wf : GatherDims.WF S10000x128 S320000x1 S320000x128 [1] [0] [] [0] [] 1 ![1, 128]
  scatter_S10000x128_S320000x1_S320000x128_1_0_0_1_wf : ScatterDims.WF S10000x128 S320000x1 S320000x128 [1] [0] [0] 1
  dot_S10000x128_S128x128_S10000x128_1_0_0_1_n_n_wf : DotDims.WF S10000x128 S128x128 S10000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The layer's output as a function of the argument arrays, in two forms (the edge weights summed per node first; one
  message per edge), and a worker's partial sums as a fold of sixteen-lane indexed adds over its blocks of 1280 edges.
-/
import Idealize.ShloMosaic.PureOps.Ideal
import Idealize.ShloMosaic.Lib.ValueIdx

noncomputable section

open scoped BigOperators

namespace Cert.Spec

open Idealize.ShloMosaic Idealize.ShloMosaic.ValueIdx

abbrev SNodesFeat : Shape := ⟨2, ![10000, 128]⟩
abbrev SEdgesCol : Shape := ⟨2, ![320000, 1]⟩
abbrev SNodesCol : Shape := ⟨2, ![10000, 1]⟩
abbrev SEnds : Shape := ⟨2, ![2, 320000]⟩
abbrev SEdgesRow : Shape := ⟨2, ![1, 320000]⟩
abbrev SWeight : Shape := ⟨2, ![128, 128]⟩
abbrev SBias : Shape := ⟨1, ![128]⟩
abbrev SAcc : Shape := ⟨1, ![10000]⟩
abbrev SLanes : Shape := ⟨1, ![16]⟩
abbrev SParts : Shape := ⟨2, ![32, 10000]⟩

def firstBlock (w : Nat) : Nat := if w < 26 then 8 * w else 7 * w + 26

def nBlocks (w : Nat) : Nat := if w < 26 then 8 else 7

def workerOfRow (r : Nat) : Nat := r / 2 + 16 * (r % 2)

theorem firstBlock_add_nBlocks_le (w : Nat) (hw : w < 32) : firstBlock w + nBlocks w ≤ 250 := by
  unfold firstBlock nBlocks; split <;> omega

section Fold

variable {F : FTy → Type} [FloatOps F]

def dstChunk (ei : IVec SEnds 32) (b k : Nat) : IVec SLanes 32 :=
  fun l => if h : 1280 * b + 16 * k + (l 0).val < 320000 then ei (ix2 (1 : Fin 2) ⟨1280 * b + 16 * k + (l 0).val, h⟩) else 0

def wtChunk (ev : Vec F SEdgesRow .f32) (b k : Nat) : Vec F SLanes .f32 :=
  fun l => if h : 1280 * b + 16 * k + (l 0).val < 320000 then ev (ix2 (0 : Fin 1) ⟨1280 * b + 16 * k + (l 0).val, h⟩) else ev (ix2 (0 : Fin 1) ⟨0, by decide⟩)

def scat (acc : Vec F SAcc .f32) (idx : IVec SLanes 32) (v : Vec F SLanes .f32) : Vec F SAcc .f32 :=
  if h : ∀ (a : Fin SAcc.rank) (x : SLanes.Idx), ((![idx] : Fin 1 → IVec SLanes 32) a x).toNat < SAcc.size a then
    storeIdx acc (![idx] : Fin SAcc.rank → IVec SLanes 32) v (fun _ => 1#1) true h
  else acc

def chunkFold (ei : IVec SEnds 32) (ev : Vec F SEdgesRow .f32) (b : Nat) : Nat → Vec F SAcc .f32 → Vec F SAcc .f32
  | 0, acc => acc
  | k + 1, acc => scat (chunkFold ei ev b k acc) (dstChunk ei b k) (wtChunk ev b k)

def blockFold (ei : IVec SEnds 32) (ev : Vec F SEdgesRow .f32) (s : Nat) : Nat → Vec F SAcc .f32 → Vec F SAcc .f32
  | 0, acc => acc
  | t + 1, acc => chunkFold ei ev (s + t) 80 (blockFold ei ev s t acc)

def zeroAcc : Vec F SAcc .f32 := fun _ => Scalar.ofBits .f32 0x00000000#32

def workerAcc (ei : IVec SEnds 32) (ev : Vec F SEdgesRow .f32) (w : Nat) : Vec F SAcc .f32 :=
  blockFold ei ev (firstBlock w) (nBlocks w) zeroAcc

def partials (ei : IVec SEnds 32) (ev : Vec F SEdgesRow .f32) : Vec F SParts .f32 :=
  fun j => workerAcc ei ev (workerOfRow (j 0).val) (ix1 (j 1))

theorem chunkFold_succ (ei : IVec SEnds 32) (ev : Vec F SEdgesRow .f32) (b k : Nat) (acc : Vec F SAcc .f32) :
    chunkFold ei ev b (k + 1) acc = scat (chunkFold ei ev b k acc) (dstChunk ei b k) (wtChunk ev b k) := rfl
theorem blockFold_succ (ei : IVec SEnds 32) (ev : Vec F SEdgesRow .f32) (s t : Nat) (acc : Vec F SAcc .f32) :
    blockFold ei ev s (t + 1) acc = chunkFold ei ev (s + t) 80 (blockFold ei ev s t acc) := rfl

end Fold

def dstOf (ei : IVec SEnds 32) (e : Fin 320000) : Nat := (ei (ix2 (1 : Fin 2) e)).toNat

def segSum (ei : IVec SEnds 32) (ew : Fin 320000 → EReal) (n : Fin 10000) : EReal :=
  ∑ e : Fin 320000, if dstOf ei e = n.val then ew e else 0

def layerOut (h : Vec Ideal SNodesFeat .f32) (ew : Fin 320000 → EReal) (norm : Fin 10000 → EReal) (ei : IVec SEnds 32)
    (W : Vec Ideal SWeight .f32) (b : Fin 128 → EReal) : Vec Ideal SNodesFeat .f32 :=
  fun i => (∑ k : Fin 128, h (ix2 (i 0) k) * W (ix2 (i 1) k)) * (segSum ei ew (i 0) * norm (i 0)) + b (i 1) * norm (i 0)

def layerMsg (h : Vec Ideal SNodesFeat .f32) (ew : Fin 320000 → EReal) (norm : Fin 10000 → EReal) (ei : IVec SEnds 32)
    (W : Vec Ideal SWeight .f32) (b : Fin 128 → EReal) : Vec Ideal SNodesFeat .f32 :=
  fun i => ((∑ k : Fin 128, (∑ e : Fin 320000, if dstOf ei e = (i 0).val then h (ix2 (i 0) k) * ew e else 0) * W (ix2 (i 1) k)) + b (i 1)) * norm (i 0)

end Cert.Spec

end
-- ==== Proof.RefValue.lean ====
/-
  The reference's result, index by index, is the layer with a message per edge.
-/
import proofs.«207122_g38740605010510_cont_8to1_b_1101_12_alg».proof.Defs
import proofs.«207122_g38740605010510_cont_8to1_b_1101_12_alg».proof.Proof.Gen.ReferenceIdeal.Run
import proofs.«207122_g38740605010510_cont_8to1_b_1101_12_alg».proof.Proof.Gen.ReferenceIdeal.Read
import proofs.«207122_g38740605010510_cont_8to1_b_1101_12_alg».proof.Proof.Spec

noncomputable section

namespace Cert.RefValue

open Cert.ReferenceIdeal Cert.ReferenceIdeal.Gen Cert.ReferenceIdeal.Read Idealize.ShloMosaic Idealize.ShloMosaic.ValueIdx
open scoped BigOperators

theorem toInt_of_lt (w : BitVec 32) (h : w.toNat < 10000) : w.toInt = (w.toNat : Int) := by
  rw [BitVec.toInt_eq_toNat_cond, if_pos (by omega)]

theorem not_slt_zero (w : BitVec 32) (h : w.toNat < 10000) : IntOp.cmpi .slt w 0#32 = 0#1 := by
  unfold IntOp.cmpi
  have : w.slt 0#32 = false := by
    rw [BitVec.slt, toInt_of_lt w h]; simp
  simp only [this]; rfl

theorem v1_at (x3 : (⟨S2x320000, .i32⟩ : BufTy).Contents (Elt Ideal)) (e : Fin 320000) :
    val_main_v1 (F := Ideal) x3 (ix1 e) = x3 (ix2 (1 : Fin 2) e) := by
  rw [val_main_v1_apply, val_main_v0_apply]
  congr 1
  funext a
  apply Fin.ext
  match a with
  | ⟨0, _⟩ => rfl
  | ⟨1, _⟩ => show e.val % 320000 = e.val; omega

theorem v12_at (x3 : (⟨S2x320000, .i32⟩ : BufTy).Contents (Elt Ideal)) (e : Fin 320000) :
    val_main_v12 (F := Ideal) x3 (ix2 e (0 : Fin 1)) = x3 (ix2 (1 : Fin 2) e) := by
  have h12 : idx_main_v12 (ix2 e (0 : Fin 1)) = ix1 e := funext fun a => Fin.ext (by match a with | ⟨0, _⟩ => rfl)
  rw [val_main_v12_apply, h12, v1_at]

theorem v7_at (x3 : (⟨S2x320000, .i32⟩ : BufTy).Contents (Elt Ideal)) (hr : ∀ i, (x3 i).toNat < 10000) (e : Fin 320000) :
    val_main_v7 (F := Ideal) x3 (ix2 e (0 : Fin 1)) = x3 (ix2 (1 : Fin 2) e) := by
  have h7 : idx_main_v7 (ix2 e (0 : Fin 1)) = ix1 e := funext fun a => Fin.ext (by match a with | ⟨0, _⟩ => rfl)
  rw [val_main_v7_apply, h7, val_main_v6_apply, val_main_v3_apply, val_main_v2_apply, val_main_c_apply, v1_at,
    not_slt_zero _ (hr _), select_zero]

theorem gather_axis0 (idx : IVec S320000x1 32) (e : Fin 320000) (k : Fin 128) :
    (gather_S10000x128_S320000x1_S320000x128_1_0_n_n_0_1_1128.operandIdx (ix2 e k) idx 0).val = min (idx (ix2 e (0 : Fin 1))).toInt.toNat 9999 := by
  show gather_S10000x128_S320000x1_S320000x128_1_0_n_n_0_1_1128.start (ix2 e k) idx 0 + gather_S10000x128_S320000x1_S320000x128_1_0_n_n_0_1_1128.batchCoord (ix2 e k) 0 + gather_S10000x128_S320000x1_S320000x128_1_0_n_n_0_1_1128.offCoord (ix2 e k) 0 = _
  rw [GatherDims.batchCoord_eq_zero _ _ _ (by decide), GatherDims.offCoord_eq_zero _ _ _ (by decide)]
  unfold GatherDims.start
  rw [dif_pos (show (0 : Fin S10000x128.rank) ∈ gather_S10000x128_S320000x1_S320000x128_1_0_n_n_0_1_1128.startIndexMap by decide)]
  have hsi : gather_S10000x128_S320000x1_S320000x128_1_0_n_n_0_1_1128.siIdx (ix2 e k) ⟨List.idxOf (0 : Fin S10000x128.rank) gather_S10000x128_S320000x1_S320000x128_1_0_n_n_0_1_1128.startIndexMap,
      List.idxOf_lt_length_iff.2 (by decide)⟩ = ix2 e (0 : Fin 1) := by
    funext b; apply Fin.ext
    match b with
    | ⟨0, _⟩ => rfl
    | ⟨1, _⟩ => rfl
  rw [hsi]
  rfl

theorem gather_axis1 (idx : IVec S320000x1 32) (e : Fin 320000) (k : Fin 128) :
    (gather_S10000x128_S320000x1_S320000x128_1_0_n_n_0_1_1128.operandIdx (ix2 e k) idx 1).val = k.val := by
  show gather_S10000x128_S320000x1_S320000x128_1_0_n_n_0_1_1128.start (ix2 e k) idx 1 + gather_S10000x128_S320000x1_S320000x128_1_0_n_n_0_1_1128.batchCoord (ix2 e k) 1 + gather_S10000x128_S320000x1_S320000x128_1_0_n_n_0_1_1128.offCoord (ix2 e k) 1 = _
  rw [GatherDims.batchCoord_eq_zero _ _ _ (by decide)]
  unfold GatherDims.start GatherDims.offCoord
  rw [dif_neg (show ¬ (1 : Fin S10000x128.rank) ∈ gather_S10000x128_S320000x1_S320000x128_1_0_n_n_0_1_1128.startIndexMap by decide),
    dif_pos (show (1 : Fin S10000x128.rank) ∈ gather_S10000x128_S320000x1_S320000x128_1_0_n_n_0_1_1128.sKept by decide)]
  simp only [Nat.zero_add]
  rfl

theorem gather_rows {α : Type} (x : S10000x128.Idx → α) (idx : IVec S320000x1 32) (e : Fin 320000) (k : Fin 128)
    (r : Fin 10000) (h : min (idx (ix2 e (0 : Fin 1))).toInt.toNat 9999 = r.val) :
    Host.gather gather_S10000x128_S320000x1_S320000x128_1_0_n_n_0_1_1128 x idx (ix2 e k) = x (ix2 r k) := by
  unfold Host.gather
  congr 1
  funext a
  apply Fin.ext
  match a with
  | ⟨0, _⟩ => exact (gather_axis0 idx e k).trans h
  | ⟨1, _⟩ => exact gather_axis1 idx e k

theorem resultIdx_eq_some {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro heq a
      have h1 : (d.start j idx a + (d.window j a : Int)).toNat = (i a).val :=
        congrArg (fun f => (f a).val) (Option.some.inj heq)
      have h2 := (h a).1
      omega
    · intro H
      congr 1
      funext a
      apply Fin.ext
      show (d.start j idx a + (d.window j a : Int)).toNat = (i a).val
      rw [H a]; exact Int.toNat_natCast _
  · rename_i h
    constructor
    · intro heq; cases heq
    · intro H
      exfalso; apply h; intro a
      rw [H a]
      exact ⟨Int.natCast_nonneg _, Int.ofNat_lt.mpr (i a).isLt⟩

theorem scatter_start0 (idx : IVec S320000x1 32) (e : Fin 320000) (k : Fin 128) :
    scatter_S10000x128_S320000x1_S320000x128_1_0_0_1.start (ix2 e k) idx 0 = (idx (ix2 e (0 : Fin 1))).toInt := by
  unfold ScatterDims.start
  rw [dif_pos (show (0 : Fin S10000x128.rank) ∈ scatter_S10000x128_S320000x1_S320000x128_1_0_0_1.scatterDimsToOperandDims by decide)]
  have hsi : scatter_S10000x128_S320000x1_S320000x128_1_0_0_1.siIdx (ix2 e k) ⟨List.idxOf (0 : Fin S10000x128.rank) scatter_S10000x128_S320000x1_S320000x128_1_0_0_1.scatterDimsToOperandDims,
      List.idxOf_lt_length_iff.2 (by decide)⟩ = ix2 e (0 : Fin 1) := by
    funext b; apply Fin.ext
    match b with
    | ⟨0, _⟩ => rfl
    | ⟨1, _⟩ => rfl
  rw [hsi]

theorem scatter_start1 (idx : IVec S320000x1 32) (e : Fin 320000) (k : Fin 128) :
    scatter_S10000x128_S320000x1_S320000x128_1_0_0_1.start (ix2 e k) idx 1 = 0 := by
  unfold ScatterDims.start
  rw [dif_neg (show ¬ (1 : Fin S10000x128.rank) ∈ scatter_S10000x128_S320000x1_S320000x128_1_0_0_1.scatterDimsToOperandDims by decide)]

theorem scatter_window0 (e : Fin 320000) (k : Fin 128) : scatter_S10000x128_S320000x1_S320000x128_1_0_0_1.window (ix2 e k) 0 = 0 := by
  unfold ScatterDims.window
  rw [dif_neg (show ¬ (0 : Fin S10000x128.rank) ∈ scatter_S10000x128_S320000x1_S320000x128_1_0_0_1.sKept by decide)]

theorem scatter_window1 (e : Fin 320000) (k : Fin 128) : scatter_S10000x128_S320000x1_S320000x128_1_0_0_1.window (ix2 e k) 1 = k.val := by
  unfold ScatterDims.window
  rw [dif_pos (show (1 : Fin S10000x128.rank) ∈ scatter_S10000x128_S320000x1_S320000x128_1_0_0_1.sKept by decide)]
  rfl

theorem resultIdx_iff (idx : IVec S320000x1 32) (e : Fin 320000) (k' : Fin 128) (n : Fin 10000) (k : Fin 128) :
    scatter_S10000x128_S320000x1_S320000x128_1_0_0_1.resultIdx? (ix2 e k') idx = some (ix2 n k)
      ↔ (idx (ix2 e (0 : Fin 1))).toInt = (n.val : Int) ∧ k' = k := by
  rw [resultIdx_eq_some]
  constructor
  · intro H
    have H0 : (idx (ix2 e (0 : Fin 1))).toInt + ((0 : Nat) : Int) = (n.val : Int) := by
      have := H 0
      rw [scatter_start0, scatter_window0] at this
      exact this
    have H1 : (0 : Int) + ((k'.val : Nat) : Int) = (k.val : Int) := by
      have := H 1
      rw [scatter_start1, scatter_window1] at this
      exact this
    exact ⟨by omega, Fin.ext (by omega)⟩
  · rintro ⟨hT, rfl⟩ a
    match a with
    | ⟨0, _⟩ =>
      exact (by rw [scatter_start0, scatter_window0, hT]; simp :
        scatter_S10000x128_S320000x1_S320000x128_1_0_0_1.start (ix2 e k') idx 0 + ((scatter_S10000x128_S320000x1_S320000x128_1_0_0_1.window (ix2 e k') 0 : Nat) : Int) = ((n.val : Nat) : Int))
    | ⟨1, _⟩ =>
      exact (by rw [scatter_start1, scatter_window1]; simp :
        scatter_S10000x128_S320000x1_S320000x128_1_0_0_1.start (ix2 e k') idx 1 + ((scatter_S10000x128_S320000x1_S320000x128_1_0_0_1.window (ix2 e k') 1 : Nat) : Int) = ((k'.val : Nat) : Int))

theorem v10_at (x0 : (⟨S10000x128, .f32⟩ : BufTy).Contents (Elt Ideal)) (x1 : (⟨S320000x1, .f32⟩ : BufTy).Contents (Elt Ideal))
    (x3 : (⟨S2x320000, .i32⟩ : BufTy).Contents (Elt Ideal)) (hr : ∀ i, (x3 i).toNat < 10000) (e : Fin 320000) (k : Fin 128) :
    val_main_v10 (F := Ideal) x0 x1 x3 (ix2 e k)
      = x0 (ix2 (⟨(x3 (ix2 (1 : Fin 2) e)).toNat, hr _⟩ : Fin 10000) k) * x1 (ix2 e (0 : Fin 1)) := by
  have hw := hr (ix2 (1 : Fin 2) e)
  have h9 : idx_main_v9 (ix2 e k) = ix2 e (0 : Fin 1) :=
    funext fun a => Fin.ext (by match a with | ⟨0, _⟩ => rfl | ⟨1, _⟩ => rfl)
  rw [val_main_v10_apply, val_main_v9_apply, h9, Ideal.mulf_def]
  unfold val_main_v8
  rw [gather_rows x0 (val_main_v7 (F := Ideal) x3) e k ⟨(x3 (ix2 (1 : Fin 2) e)).toNat, hw⟩
    (by rw [v7_at x3 hr, toInt_of_lt _ hw, Int.toNat_natCast]; exact Nat.min_eq_left (by omega))]

theorem v13_at (x0 : (⟨S10000x128, .f32⟩ : BufTy).Contents (Elt Ideal)) (x1 : (⟨S320000x1, .f32⟩ : BufTy).Contents (Elt Ideal))
    (x3 : (⟨S2x320000, .i32⟩ : BufTy).Contents (Elt Ideal)) (hr : ∀ i, (x3 i).toNat < 10000) (n : Fin 10000) (k : Fin 128) :
    val_main_v13 (F := Ideal) x0 x1 x3 (ix2 n k)
      = ∑ e : Fin 320000, if Cert.Spec.dstOf x3 e = n.val then x0 (ix2 n k) * x1 (ix2 e (0 : Fin 1)) else 0 := by
  unfold val_main_v13 Host.scatterAdd
  simp only [Ideal.hostScatterAdd_def, Ideal.hostScatterAdd, val_main_v11_apply, val_main_cst_apply, Ideal.ofBits_def,
    Ideal.ofBits_zero_f32, zero_add]
  rw [Finset.sum_filter, sum_idx2]
  refine Finset.sum_congr rfl fun e _ => ?_
  have hw := hr (ix2 (1 : Fin 2) e)
  simp only [resultIdx_iff, v12_at, toInt_of_lt (x3 (ix2 (1 : Fin 2) e)) hw]
  by_cases hd : Cert.Spec.dstOf x3 e = n.val
  · have hd' : (x3 (ix2 (1 : Fin 2) e)).toNat = n.val := hd
    rw [if_pos hd]
    have hc : ∀ k' : Fin 128,
        ((((x3 (ix2 (1 : Fin 2) e)).toNat : Nat) : Int) = ((n.val : Nat) : Int) ∧ k' = k) ↔ k' = k :=
      fun k' => ⟨fun h => h.2, fun h => ⟨by rw [hd'], h⟩⟩
    simp only [hc, Finset.sum_ite_eq', Finset.mem_univ, if_true]
    rw [v10_at x0 x1 x3 hr]
    have hn : (⟨(x3 (ix2 (1 : Fin 2) e)).toNat, hr _⟩ : Fin 10000) = n := Fin.ext hd'
    rw [hn]
  · rw [if_neg hd]
    refine Finset.sum_eq_zero fun k' _ => if_neg ?_
    rintro ⟨h, _⟩
    exact hd (Int.ofNat.inj h)

theorem val_eq
    (x0 : (⟨Cert.ReferenceIdeal.S10000x128, .f32⟩ : BufTy).Contents (Elt Ideal)) (x1 : (⟨Cert.ReferenceIdeal.S320000x1, .f32⟩ : BufTy).Contents (Elt Ideal))
    (x2 : (⟨Cert.ReferenceIdeal.S10000x1, .f32⟩ : BufTy).Contents (Elt Ideal)) (x3 : (⟨Cert.ReferenceIdeal.S2x320000, .i32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal))
    (hr : ∀ i, (x3 i).toNat < 10000) :
    Cert.ReferenceIdeal.Read.val_main_v20 (F := Ideal) x0 x1 x2 x3 x4 x5
      = Cert.Spec.layerMsg x0 (fun e => x1 (ix2 e (0 : Fin 1))) (fun n => x2 (ix2 n (0 : Fin 1))) x3 x4 (fun j => x5 (ix1 j)) := by
  funext i
  obtain ⟨n, j, rfl⟩ : ∃ (n : Fin 10000) (j : Fin 128), i = ix2 n j := ⟨i 0, i 1, eq_ix2 i⟩
  rw [val_main_v20_apply, val_main_v18_apply, val_main_v15_apply, val_main_v19_apply, val_main_v17_apply, val_main_v16_apply]
  have hl : ∀ k : Fin 128, lidx_main_v15 (ix2 n j) k = ix2 n k := fun k =>
    funext fun a => Fin.ext (by match a with | ⟨0, _⟩ => rfl | ⟨1, _⟩ => rfl)
  have hw : ∀ k : Fin 128, idx_main_v14 (ridx_main_v15 (ix2 n j) k) = ix2 j k := fun k =>
    funext fun a => Fin.ext (by match a with | ⟨0, _⟩ => rfl | ⟨1, _⟩ => rfl)
  have h5 : idx_main_v16 (idx_main_v17 (ix2 n j)) = ix1 j :=
    funext fun a => Fin.ext (by match a with | ⟨0, _⟩ => rfl)
  have h2 : idx_main_v19 (ix2 n j) = ix2 n (0 : Fin 1) :=
    funext fun a => Fin.ext (by match a with | ⟨0, _⟩ => rfl | ⟨1, _⟩ => rfl)
  simp only [val_main_v14_apply, hl, hw, h5, h2, v13_at x0 x1 x3 hr, Ideal.mulf_def, Ideal.addf_def]
  rfl

end Cert.RefValue

end
-- ==== Proof.Algebra.lean ====
/-
  The two forms of the layer agree on finite entries: distributivity over the edges and over the features, proved on
  the reals and carried to the extended reals through the coercion.
-/
import proofs.«207122_g38740605010510_cont_8to1_b_1101_12_alg».proof.Proof.Spec
import Mathlib.Data.EReal.Basic
import Mathlib.Algebra.BigOperators.Ring.Finset
import Mathlib.Tactic.Ring

noncomputable section

open scoped BigOperators

namespace Cert.Spec.Algebra

open Idealize.ShloMosaic Idealize.ShloMosaic.ValueIdx

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x : ℝ) :
    (if p then (x : EReal) else 0) = ((if p then x else 0 : ℝ) : EReal) := by
  split <;> simp

theorem real_law {E K : Type} [Fintype E] [Fintype K] (p : E → Prop) [DecidablePred p]
    (hk wk : K → ℝ) (w : E → ℝ) (b ν : ℝ) :
    ((∑ k, (∑ e, if p e then hk k * w e else 0) * wk k) + b) * ν
      = (∑ k, hk k * wk k) * ((∑ e, if p e then w e else 0) * ν) + b * ν := by
  have h1 : ∀ k, (∑ e, if p e then hk k * w e else 0) = hk k * ∑ e, if p e then w e else 0 := by
    intro k
    rw [Finset.mul_sum]
    refine Finset.sum_congr rfl fun e _ => ?_
    split <;> simp
  have h2 : (∑ k, (hk k * ∑ e, if p e then w e else 0) * wk k)
      = (∑ k, hk k * wk k) * ∑ e, if p e then w e else 0 := by
    rw [Finset.sum_mul]
    refine Finset.sum_congr rfl fun k _ => ?_
    ring
  simp only [h1]
  rw [h2]
  ring

theorem ereal_law {E K : Type} [Fintype E] [Fintype K] (p : E → Prop) [DecidablePred p]
    (hk wk : K → ℝ) (w : E → ℝ) (b ν : ℝ) :
    ((∑ k, (∑ e, if p e then (hk k : EReal) * (w e : EReal) else 0) * (wk k : EReal)) + (b : EReal)) * (ν : EReal)
      = (∑ k, (hk k : EReal) * (wk k : EReal)) * ((∑ e, if p e then (w e : EReal) else 0) * (ν : EReal))
          + (b : EReal) * (ν : EReal) := by
  simp only [← EReal.coe_mul, coe_ite, ← coe_sum, ← EReal.coe_add]
  rw [real_law]

theorem layerMsg_eq_layerOut (h : Vec Ideal Cert.Spec.SNodesFeat .f32) (ew : Fin 320000 → EReal) (norm : Fin 10000 → EReal)
    (ei : IVec Cert.Spec.SEnds 32) (W : Vec Ideal Cert.Spec.SWeight .f32) (b : Fin 128 → EReal)
    (hh : ∀ i, ∃ r : ℝ, h i = (r : EReal)) (hew : ∀ e, ∃ r : ℝ, ew e = (r : EReal))
    (hnorm : ∀ n, ∃ r : ℝ, norm n = (r : EReal))
    (hW : ∀ i, ∃ r : ℝ, W i = (r : EReal)) (hb : ∀ j, ∃ r : ℝ, b j = (r : EReal)) :
    Cert.Spec.layerMsg h ew norm ei W b = Cert.Spec.layerOut h ew norm ei W b := by
  choose hr hhr using hh
  choose wr hwr using hew
  choose nr hnr using hnorm
  choose Wr hWr using hW
  choose br hbr using hb
  funext i
  unfold Cert.Spec.layerMsg Cert.Spec.layerOut Cert.Spec.segSum

  have en : norm (i 0) = ((nr (i 0) : ℝ) : EReal) := hnr (i 0)
  have eb : b (i 1) = ((br (i 1) : ℝ) : EReal) := hbr (i 1)
  simp only [hhr, hwr, hWr, en, eb]
  exact ereal_law (fun e => Cert.Spec.dstOf ei e = (i 0).val) (fun k => hr (ix2 (i 0) k))
    (fun k => Wr (ix2 (i 1) k)) wr (br (i 1)) (nr (i 0))

end Cert.Spec.Algebra

end
-- ==== Proof.PreFacts.lean ====
/-
  Under the input-domain predicate every float entry is finite and every endpoint word is below 10000.
-/
import proofs.«207122_g38740605010510_cont_8to1_b_1101_12_alg».proof.Proof.Gen.Pre_input_domain
import Idealize.ShloMosaic.PureOps.Ideal
import Idealize.ShloMosaic.Lib.ValueIdx
import Idealize.ShloMosaic.Lib.ReduceAll
import Idealize.ShloMosaic.Lib.StableHlo.Predicate
import Mathlib.Data.EReal.Basic

noncomputable section

namespace Cert.PreFacts

open Idealize.ShloMosaic Idealize.ShloMosaic.ValueIdx Cert.Pre_input_domain

local instance : Subsingleton S_.Idx := ⟨fun _ _ => funext fun d => d.elim0⟩

theorem entries_of_pre {F : FTy → Type} [FloatOps F] [hP : Cert.Pre_input_domain.Facts]
    (x0 : FVec F S10000x128 .f32) (x1 : FVec F S320000x1 .f32) (x2 : FVec F S10000x1 .f32)
    (x3 : IVec S2x320000 32) (x4 : FVec F S128x128 .f32) (x5 : FVec F S128 .f32)
    (h : Cert.Pre_input_domain.fn (F := F) x0 x1 x2 x3 x4 x5 = (fun _ => 1#1)) :
    (∀ i, FloatOps.cmpf .olt (FloatOps.hostAbsf (x0 i)) (FloatOps.ofBits (F := F) .f32 0x7F800000#32) = 1#1) ∧
    (∀ i, FloatOps.cmpf .olt (FloatOps.hostAbsf (x1 i)) (FloatOps.ofBits (F := F) .f32 0x7F800000#32) = 1#1) ∧
    (∀ i, FloatOps.cmpf .olt (FloatOps.hostAbsf (x2 i)) (FloatOps.ofBits (F := F) .f32 0x7F800000#32) = 1#1) ∧
    (∀ i, FloatOps.cmpf .olt (FloatOps.hostAbsf (x4 i)) (FloatOps.ofBits (F := F) .f32 0x7F800000#32) = 1#1) ∧
    (∀ i, FloatOps.cmpf .olt (FloatOps.hostAbsf (x5 i)) (FloatOps.ofBits (F := F) .f32 0x7F800000#32) = 1#1) ∧
    (∀ i, IntOp.cmpi .sge (x3 i) 0#32 = 1#1 ∧ IntOp.cmpi .sle (x3 i) 9999#32 = 1#1) := by
  have h0 := congrFun h ix0
  dsimp only [Cert.Pre_input_domain.fn, Cert.Pre_input_domain.fn_part1, andi] at h0

  obtain ⟨h0, t3⟩ := IntOp.andi_eq_one.1 h0
  obtain ⟨h0, t5⟩ := IntOp.andi_eq_one.1 h0
  obtain ⟨h0, t4⟩ := IntOp.andi_eq_one.1 h0
  obtain ⟨h0, t2⟩ := IntOp.andi_eq_one.1 h0
  obtain ⟨t0, t1⟩ := IntOp.andi_eq_one.1 h0
  refine ⟨fun i => Host.reduce_andi_all _ _ _ _ _ t0 i, fun i => Host.reduce_andi_all _ _ _ _ _ t1 i,
    fun i => Host.reduce_andi_all _ _ _ _ _ t2 i, fun i => Host.reduce_andi_all _ _ _ _ _ t4 i,
    fun i => Host.reduce_andi_all _ _ _ _ _ t5 i, fun i => ?_⟩
  exact IntOp.andi_eq_one.1 (Host.reduce_andi_all _ _ _ _ _ t3 i)

theorem toNat_lt_of_signed_range (a : BitVec 32) (h0 : IntOp.cmpi .sge a 0#32 = 1#1)
    (h1 : IntOp.cmpi .sle a 9999#32 = 1#1) : a.toNat < 10000 := by
  simp only [IntOp.cmpi, StableHlo.Predicate.ofBool_eq_one_iff, BitVec.sle_iff_toInt_le] at h0 h1
  have z : (0#32 : BitVec 32).toInt = 0 := by decide
  have n : (9999#32 : BitVec 32).toInt = 9999 := by decide
  rw [z] at h0
  rw [n] at h1
  have e := BitVec.toInt_eq_toNat_cond a
  have := a.isLt
  omega

theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  have h' : Ideal.cmp .olt (max x (-x)) (Ideal.ofBits .f32 0x7F800000#32) = 1#1 := h
  rw [htop] at h'
  simp only [Ideal.cmp, StableHlo.Predicate.ofBool_eq_one_iff, decide_eq_true_eq] at h'
  induction x using EReal.rec with
  | bot => simp at h'
  | coe r => exact ⟨r, rfl⟩
  | top => simp at h'

theorem range_of_pre {F : FTy → Type} [FloatOps F] [hP : Cert.Pre_input_domain.Facts]
    (x0 : FVec F S10000x128 .f32) (x1 : FVec F S320000x1 .f32) (x2 : FVec F S10000x1 .f32)
    (x3 : IVec S2x320000 32) (x4 : FVec F S128x128 .f32) (x5 : FVec F S128 .f32) :
    Cert.Pre_input_domain.fn (F := F) x0 x1 x2 x3 x4 x5 = (fun _ => 1#1) → ∀ i, (x3 i).toNat < 10000 := by
  intro h i
  obtain ⟨_, _, _, _, _, e3⟩ := entries_of_pre x0 x1 x2 x3 x4 x5 h
  exact toNat_lt_of_signed_range (x3 i) (e3 i).1 (e3 i).2

theorem finite_of_pre [hP : Cert.Pre_input_domain.Facts]
    (x0 : FVec Ideal S10000x128 .f32) (x1 : FVec Ideal S320000x1 .f32) (x2 : FVec Ideal S10000x1 .f32)
    (x3 : IVec S2x320000 32) (x4 : FVec Ideal S128x128 .f32) (x5 : FVec Ideal S128 .f32) :
    Cert.Pre_input_domain.fn (F := Ideal) x0 x1 x2 x3 x4 x5 = (fun _ => 1#1) →
      (∀ i, ∃ r : ℝ, x0 i = (r : EReal)) ∧ (∀ i, ∃ r : ℝ, x1 i = (r : EReal)) ∧ (∀ i, ∃ r : ℝ, x2 i = (r : EReal)) ∧
        (∀ i, ∃ r : ℝ, x4 i = (r : EReal)) ∧ (∀ i, ∃ r : ℝ, x5 i = (r : EReal)) := by
  intro h
  obtain ⟨e0, e1, e2, e4, e5, _⟩ := entries_of_pre x0 x1 x2 x3 x4 x5 h
  exact ⟨fun i => real_of_abs_lt_inf _ (e0 i), fun i => real_of_abs_lt_inf _ (e1 i),
    fun i => real_of_abs_lt_inf _ (e2 i), fun i => real_of_abs_lt_inf _ (e4 i), fun i => real_of_abs_lt_inf _ (e5 i)⟩

end Cert.PreFacts

end
-- ==== Proof.KI.Common.lean ====
/-
  The kernel's program and the names used throughout: the endpoint, weight and partial-sum arrays, and the worker
  s + 16 c and the row 2 s + c of subcore s of core c.
-/
import proofs.«207122_g38740605010510_cont_8to1_b_1101_12_alg».proof.Defs
import proofs.«207122_g38740605010510_cont_8to1_b_1101_12_alg».proof.Proof.Gen.KernelIdeal
import proofs.«207122_g38740605010510_cont_8to1_b_1101_12_alg».proof.Proof.Gen.KernelIdeal.Skeleton
import proofs.«207122_g38740605010510_cont_8to1_b_1101_12_alg».proof.Proof.Gen.KernelIdeal.Launch
import proofs.«207122_g38740605010510_cont_8to1_b_1101_12_alg».proof.Proof.Gen.KernelIdeal.Points
import proofs.«207122_g38740605010510_cont_8to1_b_1101_12_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans embR
instance EP_landsIn : (EP : Emb UP 𝕄).LandsIn (upEmb : UEmb _ 𝕄) := by unfold EP; infer_instance

variable (m : (ℓ : Loc nD τ sig) → Buf (Elt F) ℓ) (ρ : Dev nD → PrngReg)

abbrev eiLoc (d : Dev nD) : Loc nD τ sig := (SparseCore.T d).loc main_arg3
abbrev evLoc (d : Dev nD) : Loc nD τ sig := (SparseCore.T d).loc main_v0
abbrev spLoc (d : Dev nD) : Loc nD τ sig := (SparseCore.T d).loc main_v1

def workerOf (c : Fin 2) (s : Fin 16) : Fin 32 := ⟨s.val + 16 * c.val, by omega⟩
def rowOf (c : Fin 2) (s : Fin 16) : Fin 32 := ⟨2 * s.val + c.val, by omega⟩

theorem workerOfRow_rowOf (c : Fin 2) (s : Fin 16) : Cert.Spec.workerOfRow (rowOf c s).val = (workerOf c s).val := by
  unfold Cert.Spec.workerOfRow rowOf workerOf; dsimp only; omega

theorem hdiv32 : 32 ∣ S32x10000.size 0 := ⟨1, rfl⟩

abbrev spRow (r : Fin 32) : Rect S32x10000 := Rect.part (s := S32x10000) (a₀ := 0) hdiv32 r
abbrev spRowSet (r : Fin 32) : Finset S32x10000.Idx :=
  ((Memref.whole main_v1_scv : Memref sig .scVector .hbm S32x10000 .f32).view.slice (spRow r)).set

variable [FloatOps F]

def evOf (d : Dev nD) : Buf (Elt F) (evLoc d) :=
  StableHlo.after ([StableHlo.reshape main_arg1 main_v0 rfl shapeCasts_S320000x1_S1x320000] : List (HloOp τ sig (Elt F)))
    (fun b => m (d, b)) (Proc.devRef .tc main_v0)

def spOf (d : Dev nD) : Buf (Elt F) (spLoc d) :=
  Cert.Spec.partials (F := F) (m (eiLoc d)) (evOf m d)

abbrev tok (w : Fin 32) : PosShare TreeShare := Transfers.shareTok fullShare 32 w
abbrev kept : PosShare TreeShare := Transfers.shareDrop fullShare 32

abbrev eiTok (d : Dev nD) (w : Fin 32) : sProp 𝕄 := eiLoc d ↦{tok w} m (eiLoc d)
abbrev evTok (d : Dev nD) (w : Fin 32) : sProp 𝕄 := evLoc d ↦{tok w} evOf m d
abbrev spRowPts (d : Dev nD) (r : Fin 32) (f : Buf (Elt F) (spLoc d)) : sProp 𝕄 := spLoc d ↦[spRowSet r]{fullShare} f

def coreIn (d : Dev nD) (c : Fin 2) : sProp 𝕄 :=
  bigSep Finset.univ fun s : Fin 16 => iprop(eiTok m d (workerOf c s) ∗ evTok m d (workerOf c s) ∗ ∃ f, spRowPts d (rowOf c s) f)
def coreOut (d : Dev nD) (c : Fin 2) : sProp 𝕄 :=
  bigSep Finset.univ fun s : Fin 16 => iprop(eiTok m d (workerOf c s) ∗ evTok m d (workerOf c s) ∗ spRowPts d (rowOf c s) (spOf m d))

def P : (K (F := F)).Pay (nD := nD) (Val := Elt F) (Name := ℕ) (U := UU) where
  st := fun q d c => match q with | 0 => coreIn m d (Fin.cast nCore_zero c)
  dn := fun q d c => match q with | 0 => coreOut m d (Fin.cast nCore_zero c)
  go := fun q d c s => match q with
    | 0 => iprop(eiTok m d (workerOf (Fin.cast nCore_zero c) (Fin.cast nSub_zero s)) ∗ evTok m d (workerOf (Fin.cast nCore_zero c) (Fin.cast nSub_zero s))
        ∗ ∃ f, spRowPts d (rowOf (Fin.cast nCore_zero c) (Fin.cast nSub_zero s)) f)
  td := fun q d c s => match q with
    | 0 => iprop(eiTok m d (workerOf (Fin.cast nCore_zero c) (Fin.cast nSub_zero s)) ∗ evTok m d (workerOf (Fin.cast nCore_zero c) (Fin.cast nSub_zero s))
        ∗ spRowPts d (rowOf (Fin.cast nCore_zero c) (Fin.cast nSub_zero s)) (spOf m d))
  x := fun _ _ => iprop(emp)

instance P_storable : (P (F := F) m).IsStorable where
  st q d c := match q with | 0 => by unfold P coreIn; infer_instance
  dn q d c := match q with | 0 => by unfold P coreOut; infer_instance
  go q d c s := match q with | 0 => by unfold P; infer_instance
  td q d c s := match q with | 0 => by unfold P; infer_instance

end Cert.KI

end
-- ==== Proof.KI.Split.lean ====
/-
  Fin 32 is Fin 2 × Fin 16 in two ways, by worker number and by row, so dealing the arrays to the subcores and
  gathering them back loses and doubles nothing.
-/
import proofs.«207122_g38740605010510_cont_8to1_b_1101_12_alg».proof.Proof.KI.Common

noncomputable section

namespace Cert.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

def workerEquiv : Fin 2 × Fin 16 ≃ Fin 32 where
  toFun p := workerOf p.1 p.2
  invFun w := (⟨w.val / 16, by omega⟩, ⟨w.val % 16, by omega⟩)
  left_inv p := by
    obtain ⟨c, s⟩ := p
    refine Prod.ext (Fin.ext ?_) (Fin.ext ?_) <;> simp only [workerOf] <;> omega
  right_inv w := by
    apply Fin.ext; simp only [workerOf]; omega

def rowEquiv : Fin 2 × Fin 16 ≃ Fin 32 where
  toFun p := rowOf p.1 p.2
  invFun r := (⟨r.val % 2, by omega⟩, ⟨r.val / 2, by omega⟩)
  left_inv p := by
    obtain ⟨c, s⟩ := p
    refine Prod.ext (Fin.ext ?_) (Fin.ext ?_) <;> simp only [rowOf] <;> omega
  right_inv r := by
    apply Fin.ext; simp only [rowOf]; omega

theorem bigSep_regroup (e : Fin 2 × Fin 16 ≃ Fin 32) (X : Fin 32 → sProp 𝕄) :
    (bigSep Finset.univ fun c : Fin 2 => bigSep Finset.univ fun s : Fin 16 => X (e (c, s))) = bigSep Finset.univ X := by
  rw [← bigSep_univ_prod (fun p : Fin 2 × Fin 16 => X (e p))]
  exact ((bigSep_map (s := (Finset.univ : Finset (Fin 2 × Fin 16))) e.toEmbedding (Φ := X)).symm).trans (by rw [Finset.map_univ_equiv])

theorem spRowSet_eq (r : Fin 32) : spRowSet r = (spRow r).set := by
  show ((View.whole (main_v1_scv : Ref sig .scVector)).slice (spRow r)).set = _
  rw [View.set_slice]; exact Finset.map_refl
theorem spRows_disjoint : ∀ i ∈ (Finset.univ : Finset (Fin 32)), ∀ j ∈ (Finset.univ : Finset (Fin 32)), i ≠ j → Disjoint (spRowSet i) (spRowSet j) :=
  fun i _ j _ h => by rw [spRowSet_eq, spRowSet_eq]; exact Rect.part_disjoint hdiv32 h
theorem spRows_cover : (Finset.univ : Finset (Fin 32)).biUnion spRowSet = Finset.univ :=
  (Finset.biUnion_congr rfl fun i _ => spRowSet_eq i).trans (Rect.biUnion_part hdiv32)

theorem sp_rows (d : Dev nD) (f : Buf (Elt F) (spLoc d)) :
    (spLoc d ↦{fullShare} f : sProp 𝕄) = bigSep Finset.univ fun r : Fin 32 => spRowPts d r f := by
  rw [← pointsTo_biUnion Finset.univ (ℓ := spLoc d) spRowSet spRows_disjoint, spRows_cover]; try rfl

variable (m : (ℓ : Loc nD τ sig) → Buf (Elt F) ℓ) [FloatOps F]

theorem call_split (d : Dev nD) :
    iprop((eiLoc d ↦{fullShare} m (eiLoc d)) ∗ (evLoc d ↦{fullShare} evOf m d) ∗ ∃ f, spLoc d ↦{fullShare} f)
      ⊢ (iprop(((eiLoc d ↦{kept} m (eiLoc d)) ∗ (evLoc d ↦{kept} evOf m d)) ∗ bigSep Finset.univ fun c : Fin 2 => coreIn m d c) : sProp 𝕄) := by
  unfold coreIn
  rw [show (bigSep Finset.univ fun c : Fin 2 => bigSep Finset.univ fun s : Fin 16 =>
        iprop(eiTok m d (workerOf c s) ∗ evTok m d (workerOf c s) ∗ ∃ f, spRowPts d (rowOf c s) f))
      = iprop((bigSep Finset.univ fun w : Fin 32 => eiTok m d w) ∗ (bigSep Finset.univ fun w : Fin 32 => evTok m d w)
          ∗ bigSep Finset.univ fun r : Fin 32 => iprop(∃ f, spRowPts d r f)) from by
    rw [← bigSep_regroup workerEquiv (fun w => eiTok m d w), ← bigSep_regroup workerEquiv (fun w => evTok m d w),
      ← bigSep_regroup rowEquiv (fun r => iprop(∃ f, spRowPts d r f))]
    simp only [← bigSep_sep']
    rfl]
  have hmono : ∀ f : Buf (Elt F) (spLoc d),
      (bigSep Finset.univ fun r : Fin 32 => spRowPts d r f : sProp 𝕄) ⊢ bigSep Finset.univ fun r : Fin 32 => iprop(∃ f, spRowPts d r f) :=
    fun f => bigSep_mono fun r _ => exists_intro (Φ := fun g : Buf (Elt F) (spLoc d) => spRowPts (F := F) d r g) f
  iintro ⟨Hei, Hev, %f, Hsp⟩
  ihave Hei' := (Transfers.pointsTo_toks_split fullShare 32) $$ Hei
  ihave Hev' := (Transfers.pointsTo_toks_split fullShare 32) $$ Hev
  icases Hei' with ⟨Hei0, HeiT⟩
  icases Hev' with ⟨Hev0, HevT⟩
  isplitl [Hei0 Hev0]
  · isplitl [Hei0]; · iexact Hei0
    iexact Hev0
  isplitl [HeiT]; · iexact HeiT
  isplitl [HevT]; · iexact HevT
  ihave Hrows := (Entails.of_eq (sp_rows d f)) $$ Hsp
  ihave Hrows' := (hmono f) $$ Hrows
  iexact Hrows'

theorem call_join (d : Dev nD) :
    iprop(((eiLoc d ↦{kept} m (eiLoc d)) ∗ (evLoc d ↦{kept} evOf m d)) ∗ bigSep Finset.univ fun c : Fin 2 => coreOut m d c)
      ⊢ (iprop((eiLoc d ↦{fullShare} m (eiLoc d)) ∗ (evLoc d ↦{fullShare} evOf m d) ∗ spLoc d ↦{fullShare} spOf m d) : sProp 𝕄) := by
  unfold coreOut
  rw [show (bigSep Finset.univ fun c : Fin 2 => bigSep Finset.univ fun s : Fin 16 =>
        iprop(eiTok m d (workerOf c s) ∗ evTok m d (workerOf c s) ∗ spRowPts d (rowOf c s) (spOf m d)))
      = iprop((bigSep Finset.univ fun w : Fin 32 => eiTok m d w) ∗ (bigSep Finset.univ fun w : Fin 32 => evTok m d w)
          ∗ bigSep Finset.univ fun r : Fin 32 => spRowPts d r (spOf m d)) from by
    rw [← bigSep_regroup workerEquiv (fun w => eiTok m d w), ← bigSep_regroup workerEquiv (fun w => evTok m d w),
      ← bigSep_regroup rowEquiv (fun r => spRowPts d r (spOf m d))]
    simp only [← bigSep_sep']
    rfl]
  iintro ⟨⟨Hei0, Hev0⟩, HeiT, HevT, Hrows⟩
  isplitl [Hei0 HeiT]
  · iapply (Transfers.pointsTo_toks_join fullShare 32); isplitl [Hei0] <;> iassumption
  isplitl [Hev0 HevT]
  · iapply (Transfers.pointsTo_toks_join fullShare 32); isplitl [Hev0] <;> iassumption
  iapply (Entails.of_eq (sp_rows d (spOf m d)).symm); iexact Hrows

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show coreIn m d (Fin.cast nCore_zero c) ⊢ |={Set.univ}=> iprop(
      (bigSep Finset.univ fun i : Fin ((K (F := F)).nSub 0) =>
        iprop(eiTok m d (workerOf (Fin.cast nCore_zero c) (Fin.cast nSub_zero i)) ∗ evTok m d (workerOf (Fin.cast nCore_zero c) (Fin.cast nSub_zero i))
          ∗ ∃ f, spRowPts d (rowOf (Fin.cast nCore_zero c) (Fin.cast nSub_zero i)) f))
      ∗ ((bigSep Finset.univ fun i : Fin ((K (F := F)).nSub 0) =>
          iprop(eiTok m d (workerOf (Fin.cast nCore_zero c) (Fin.cast nSub_zero i)) ∗ evTok m d (workerOf (Fin.cast nCore_zero c) (Fin.cast nSub_zero i))
            ∗ spRowPts d (rowOf (Fin.cast nCore_zero c) (Fin.cast nSub_zero i)) (spOf m d)))
          -∗ coreOut m d (Fin.cast nCore_zero c)))
  rw [bigSep_tasks (F := F) (fun s => iprop(eiTok m d (workerOf (Fin.cast nCore_zero c) s) ∗ evTok m d (workerOf (Fin.cast nCore_zero c) s)
        ∗ ∃ f, spRowPts d (rowOf (Fin.cast nCore_zero c) s) f)),
    bigSep_tasks (F := F) (fun s => iprop(eiTok m d (workerOf (Fin.cast nCore_zero c) s) ∗ evTok m d (workerOf (Fin.cast nCore_zero c) s)
        ∗ spRowPts d (rowOf (Fin.cast nCore_zero c) s) (spOf m d)))]
  unfold coreIn coreOut
  iintro H; imodintro
  isplitl [H]; · iexact H
  iintro H'; iexact H'

end Cert.KI

end
-- ==== Proof.KI.Regions.lean ====
/-
  The two TensorCore calls, each as a function of the arrays it is entered with: the matrix product, and
  product · ((Σ of the 32 partial sums) · norm) + bias · norm.
-/
import proofs.«207122_g38740605010510_cont_8to1_b_1101_12_alg».proof.Proof.KI.Common
import proofs.«207122_g38740605010510_cont_8to1_b_1101_12_alg».proof.Proof.Gen.KernelIdeal.Launch
import proofs.«207122_g38740605010510_cont_8to1_b_1101_12_alg».proof.Proof.Gen.KernelIdeal.Skeleton
import proofs.«207122_g38740605010510_cont_8to1_b_1101_12_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Cells
import Idealize.ShloMosaic.Lib.Tactic

set_option maxRecDepth 16384

noncomputable section

namespace Cert.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem zero_mul_fun {n : Nat} (size : Fin n → Nat) : (fun a => 0 * size a) = fun _ => 0 := funext fun a => Nat.zero_mul _

theorem zeros2 : (![0, 0] : Fin 2 → Nat) = fun _ => 0 := funext fun a => by fin_cases a <;> rfl

def ΦTc {gr W : Nat} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

section Regions

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) (HIx 1) ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) (HIx 1) ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S10000x128 := Rect.unit (s := S10000x128) ![0, 0] S10000x128.size inb_S10000x128_S10000x128_0_0
abbrev r1_1 : Rect S128x128 := Rect.unit (s := S128x128) ![0, 0] S128x128.size inb_S128x128_S128x128_0_0

def out1_2 (x0 : Vec F S10000x128 .f32) (x1 : Vec F S128x128 .f32) : Vec F S10000x128 .f32 :=
  View.canon [⟨r1_0, k1_pay1 (View.ld x0 r1_0) (View.ld x1 r1_1)⟩]

theorem cover1_2 (p0 : Vec F S10000x128 .f32) (y : S10000x128.Idx) :
    ∃ pc ∈ ([⟨r1_0, p0⟩] : List (View.Piece (Elt F) S10000x128 .f32)), y ∈ pc.1.set :=
  ⟨_, List.mem_singleton_self _, View.mem_set_unit_zero (S := S10000x128) zeros2 inb_S10000x128_S10000x128_0_0 y⟩

theorem out1_2_eq (x0 : Vec F S10000x128 .f32) (x1 : Vec F S128x128 .f32) : out1_2 x0 x1 = k1_pay1 x0 x1 := by
  unfold out1_2
  rw [View.canon_unit_zero (S := S10000x128) zeros2 inb_S10000x128_S10000x128_0_0,
    View.ld_unit_zero (S := S10000x128) zeros2 inb_S10000x128_S10000x128_0_0,
    View.ld_unit_zero (S := S128x128) zeros2 inb_S128x128_S128x128_0_0]

set_option maxHeartbeats 1000000 in

theorem sound_kernel1 (c : Dev nD) (E : Set ℕ) (arg0 : Memref sig .tc .vmem S10000x128 .f32) (harg0 : arg0.IsWhole)
    (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__tc_mm_body arg0 harg0 arg1 harg1 arg2 harg2) K := by
  simp only [cc1__tc_mm_body_eq_skeleton]; unfold cc1__tc_mm_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) (HIx 1) ℕ UU ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := ΦTc spec1 c
  q _ := fullShare
  owed _ := 0
  recorded _ := {p | (K (F := F)).lev ((c : Thread nD τ), p.1) p.2 ≤ 8}

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt (none : HIx 1) t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt (none : HIx 1) t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt (none : HIx 1) t.succ = (dat1 V c).owesAt (none : HIx 1) t.castSucc from rfl,
    after1_0, after1_1, after1_2]
  iintro ⟨HΦ, Ho, ⟨%d0, H0⟩, ⟨%d1, H1⟩, ⟨%d2, H2⟩⟩
  iapply (sound_kernel1 c Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none (none : HIx 1) Set.univ := fun t => by
  rw [bigSep_W1, bigSep_W1]
  exact sound_body1 V c t

theorem arrAt1_in (c : Dev nD) (w : Fin cfg1.W) (hw : w ≠ 2) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, h => exact absurd rfl h
  rw [Dat.arrAt_in _ w hin]; exact A_eq1 V c w

theorem arrAt1_out (c : Dev nD) : (dat1 V c).arrAt 2 cfg1.N = k1_pay1 (V c main_arg0) (V c main_arg4) := by
  refine Dat.arrAt_eq_of_cover (dat1 V c) 2 (k1_pay1 (V c main_arg0) (V c main_arg4)) (fun t _ => ?_) (fun i => ⟨t1_0, flush1_2 t1_0, ?_⟩)
  ·
    show (dat1 V c).after 2 t = _
    rw [after1_2, out1_2_eq]
    unfold iblk1
    have h0 : ((cfg1.win 0).blk t).view.read (Elt F) (V c (Pipeline.arrRef spec1 0)) = V c main_arg0 :=
      Memref.read_access_unit_zero (Elt F) main_arg0 (off := fun a => 0 * S10000x128.size a) (zero_mul_fun _) _ (V c main_arg0)
    have h1 : ((cfg1.win 1).blk t).view.read (Elt F) (V c (Pipeline.arrRef spec1 1)) = V c main_arg4 :=
      Memref.read_access_unit_zero (Elt F) main_arg4 (off := fun a => 0 * S128x128.size a) (zero_mul_fun _) _ (V c main_arg4)
    have h2 : ∀ X : Vec F S10000x128 .f32, ((cfg1.win 2).blk t).view.read (Elt F) X = X := fun X =>
      Memref.read_access_unit_zero (Elt F) main_v2 (off := fun a => 0 * S10000x128.size a) (zero_mul_fun _) _ X
    rw [h0, h1, h2]
  ·
    have hs : ((cfg1.win 2).blk t1_0).view.set = Finset.univ :=
      (View.set_slice_whole main_v2 _).trans
        (Finset.eq_univ_of_forall fun y => View.mem_set_unit_zero (S := S10000x128) (off := fun a => 0 * S10000x128.size a) (zero_mul_fun _) _ y)
    rw [hs]; exact Finset.mem_univ _

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S10000x128 := Rect.unit (s := S10000x128) ![0, 0] S10000x128.size inb_S10000x128_S10000x128_0_0
abbrev r2_1 : Rect S32x10000 := Rect.unit (s := S32x10000) ![0, 0] S32x10000.size inb_S32x10000_S32x10000_0_0
abbrev r2_2 : Rect S10000x1 := Rect.unit (s := S10000x1) ![0, 0] S10000x1.size inb_S10000x1_S10000x1_0_0
abbrev r2_3 : Rect S1x128 := Rect.unit (s := S1x128) ![0, 0] S1x128.size inb_S1x128_S1x128_0_0

def out2_4 (x0 : Vec F S10000x128 .f32) (x1 : Vec F S32x10000 .f32) (x2 : Vec F S10000x1 .f32) (x3 : Vec F S1x128 .f32) :
    Vec F S10000x128 .f32 :=
  View.canon [⟨r2_0, k2_pay1 (View.ld x1 r2_1) (View.ld x2 r2_2) (View.ld x0 r2_0) (View.ld x3 r2_3)⟩]

theorem cover2_4 (p0 : Vec F S10000x128 .f32) (y : S10000x128.Idx) :
    ∃ pc ∈ ([⟨r2_0, p0⟩] : List (View.Piece (Elt F) S10000x128 .f32)), y ∈ pc.1.set :=
  ⟨_, List.mem_singleton_self _, View.mem_set_unit_zero (S := S10000x128) zeros2 inb_S10000x128_S10000x128_0_0 y⟩

theorem out2_4_eq (x0 : Vec F S10000x128 .f32) (x1 : Vec F S32x10000 .f32) (x2 : Vec F S10000x1 .f32) (x3 : Vec F S1x128 .f32) :
    out2_4 x0 x1 x2 x3 = k2_pay1 x1 x2 x0 x3 := by
  unfold out2_4
  rw [View.canon_unit_zero (S := S10000x128) zeros2 inb_S10000x128_S10000x128_0_0,
    View.ld_unit_zero (S := S10000x128) zeros2 inb_S10000x128_S10000x128_0_0,
    View.ld_unit_zero (S := S32x10000) zeros2 inb_S32x10000_S32x10000_0_0,
    View.ld_unit_zero (S := S10000x1) zeros2 inb_S10000x1_S10000x1_0_0,
    View.ld_unit_zero (S := S1x128) zeros2 inb_S1x128_S1x128_0_0]

set_option maxHeartbeats 1000000 in

theorem sound_kernel2 (c : Dev nD) (E : Set ℕ) (arg0 : Memref sig .tc .vmem S10000x128 .f32) (harg0 : arg0.IsWhole)
    (arg1 : Memref sig .tc .vmem S32x10000 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S32x10000 .f32) (x2 : Vec F S10000x1 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__tc_scale_body arg0 harg0 arg1 harg1 arg2 harg2 arg3 harg3 arg4 harg4) K := by
  simp only [cc2__tc_scale_body_eq_skeleton]; unfold cc2__tc_scale_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := ΦTc spec2 c
  q _ := fullShare
  owed _ := 0
  recorded _ := {p | (K (F := F)).lev ((c : Thread nD τ), p.1) p.2 ≤ 8}

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt (none : HIx 1) t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt (none : HIx 1) t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt (none : HIx 1) t.succ = (dat2 V c).owesAt (none : HIx 1) t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none (none : HIx 1) Set.univ := fun t => by
  rw [bigSep_W2, bigSep_W2]
  exact sound_body2 V c t

theorem arrAt2_in (c : Dev nD) (w : Fin cfg2.W) (hw : w ≠ 4) : (dat2 V c).arrAt w cfg2.N = V c (Pipeline.arrRef spec2 w) := by
  have hin : (cfg2.win w).isOut = false := by
    match w, hw with
    | ⟨0, _⟩, _ => rfl
    | ⟨1, _⟩, _ => rfl
    | ⟨2, _⟩, _ => rfl
    | ⟨3, _⟩, _ => rfl
    | ⟨4, _⟩, h => exact absurd rfl h
  rw [Dat.arrAt_in _ w hin]; exact A_eq2 V c w

theorem arrAt2_out (c : Dev nD) :
    (dat2 V c).arrAt 4 cfg2.N = k2_pay1 (V c main_v1) (V c main_arg2) (V c main_v2) (V c main_v3) := by
  refine Dat.arrAt_eq_of_cover (dat2 V c) 4 (k2_pay1 (V c main_v1) (V c main_arg2) (V c main_v2) (V c main_v3)) (fun t _ => ?_) (fun i => ⟨t2_0, flush2_4 t2_0, ?_⟩)
  ·
    show (dat2 V c).after 4 t = _
    rw [after2_4, out2_4_eq]
    unfold iblk2
    have h0 : ((cfg2.win 0).blk t).view.read (Elt F) (V c (Pipeline.arrRef spec2 0)) = V c main_v2 :=
      Memref.read_access_unit_zero (Elt F) main_v2 (off := fun a => 0 * S10000x128.size a) (zero_mul_fun _) _ (V c main_v2)
    have h1 : ((cfg2.win 1).blk t).view.read (Elt F) (V c (Pipeline.arrRef spec2 1)) = V c main_v1 :=
      Memref.read_access_unit_zero (Elt F) main_v1 (off := fun a => 0 * S32x10000.size a) (zero_mul_fun _) _ (V c main_v1)
    have h2 : ((cfg2.win 2).blk t).view.read (Elt F) (V c (Pipeline.arrRef spec2 2)) = V c main_arg2 :=
      Memref.read_access_unit_zero (Elt F) main_arg2 (off := fun a => 0 * S10000x1.size a) (zero_mul_fun _) _ (V c main_arg2)
    have h3 : ((cfg2.win 3).blk t).view.read (Elt F) (V c (Pipeline.arrRef spec2 3)) = V c main_v3 :=
      Memref.read_access_unit_zero (Elt F) main_v3 (off := fun a => 0 * S1x128.size a) (zero_mul_fun _) _ (V c main_v3)
    have h4 : ∀ X : Vec F S10000x128 .f32, ((cfg2.win 4).blk t).view.read (Elt F) X = X := fun X =>
      Memref.read_access_unit_zero (Elt F) main_v4 (off := fun a => 0 * S10000x128.size a) (zero_mul_fun _) _ X
    rw [h0, h1, h2, h3, h4]
  ·
    have hs : ((cfg2.win 4).blk t2_0).view.set = Finset.univ :=
      (View.set_slice_whole main_v4 _).trans
        (Finset.eq_univ_of_forall fun y => View.mem_set_unit_zero (S := S10000x128) (off := fun a => 0 * S10000x128.size a) (zero_mul_fun _) _ y)
    rw [hs]; exact Finset.mem_univ _

end Regions

end Cert.KI

end
-- ==== Proof.KI.Main.lean ====
/-
  @main step by step: the arrays after each step, each as the previous ones changed by that step.
-/
import proofs.«207122_g38740605010510_cont_8to1_b_1101_12_alg».proof.Proof.KI.Split
import proofs.«207122_g38740605010510_cont_8to1_b_1101_12_alg».proof.Proof.KI.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within)
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

abbrev opRow : HloOp τ sig (Elt F) := StableHlo.reshape main_arg1 main_v0 rfl shapeCasts_S320000x1_S1x320000
abbrev opBias : HloOp τ sig (Elt F) := StableHlo.reshape main_arg5 main_v3 rfl shapeCasts_S128_S1x128
abbrev opCopy : HloOp τ sig (Elt F) := StableHlo.unary main_v2 main_v4 id

abbrev uc : Finset (DevRef τ sig) := Pipeline.ucRefs τ sig

theorem opRow_sub : (opRow (F := F)).bufs ⊆ uc :=
  show ({Proc.devRef .tc main_arg1, Proc.devRef .tc main_v0} : Finset (DevRef τ sig)) ⊆ uc by decide
theorem opBias_sub : (opBias (F := F)).bufs ⊆ uc :=
  show ({Proc.devRef .tc main_arg5, Proc.devRef .tc main_v3} : Finset (DevRef τ sig)) ⊆ uc by decide
theorem opCopy_sub : (opCopy (F := F)).bufs ⊆ uc :=
  show ({Proc.devRef .tc main_v2, Proc.devRef .tc main_v4} : Finset (DevRef τ sig)) ⊆ uc by decide

theorem notW_row {b : DevRef τ sig} (h : b ≠ Proc.devRef .tc main_v0) : b ∉ (opRow (F := F)).writes := by
  rw [StableHlo.reshape_writes]; exact fun hb => h (Finset.mem_singleton.mp hb)
theorem notW_bias {b : DevRef τ sig} (h : b ≠ Proc.devRef .tc main_v3) : b ∉ (opBias (F := F)).writes := by
  rw [StableHlo.reshape_writes]; exact fun hb => h (Finset.mem_singleton.mp hb)
theorem notW_copy {b : DevRef τ sig} (h : b ≠ Proc.devRef .tc main_v4) : b ∉ (opCopy (F := F)).writes := by
  rw [StableHlo.unary_writes]; exact fun hb => h (Finset.mem_singleton.mp hb)

abbrev Wa (d : Dev nD) : Valuation τ sig (Elt F) := fun b => m (d, b)

abbrev Wb (d : Dev nD) : Valuation τ sig (Elt F) := (opRow (F := F)).result (Wa m d)

def Wc (d : Dev nD) : Valuation τ sig (Elt F) := Function.update (Wb m d) (Proc.devRef .tc main_v1) (spOf m d)
abbrev Vc : (c : Dev nD) → (b : Ref sig .tc) → Buf (Elt F) ((c : Thread nD τ).loc b) := fun c b => Wc m c b

def Wd (d : Dev nD) : Valuation τ sig (Elt F) :=
  Pipeline.withArrays spec1 d (Wc m d) fun w => (dat1 (Vc m) d).arrAt w cfg1.N

abbrev We (d : Dev nD) : Valuation τ sig (Elt F) := (opCopy (F := F)).result ((opBias (F := F)).result (Wd m d))
abbrev Ve : (c : Dev nD) → (b : Ref sig .tc) → Buf (Elt F) ((c : Thread nD τ).loc b) := fun c b => We m c b

def Wf (d : Dev nD) : Valuation τ sig (Elt F) :=
  Pipeline.withArrays spec2 d (We m d) fun w => (dat2 (Ve m) d).arrAt w cfg2.N
abbrev Vd : (c : Dev nD) → (b : Ref sig .tc) → Buf (Elt F) ((c : Thread nD τ).loc b) := fun c b => Wd m c b
abbrev Vf : (c : Dev nD) → (b : Ref sig .tc) → Buf (Elt F) ((c : Thread nD τ).loc b) := fun c b => Wf m c b

theorem Wd_arr (c : Dev nD) (w : Fin cfg1.W) :
    Wd m c (Proc.devRef .tc (Pipeline.arrRef spec1 w)) = (dat1 (Vc m) c).arrAt w cfg1.N := by
  unfold Wd; exact Pipeline.withArrays_arr spec1 launch1.win.arr_inj c _ _ w
theorem Wd_of_ne (c : Dev nD) (b : Ref sig .tc) (hb : ∀ w, Pipeline.arrRef spec1 w ≠ b) :
    Wd m c (Proc.devRef .tc b) = Wc m c (Proc.devRef .tc b) := by
  unfold Wd; exact Pipeline.withArrays_of_ne spec1 c _ _ b hb
theorem hFd (c : Dev nD) (w : Fin cfg1.W) : (dat1 (Vc m) c).arrAt w cfg1.N = Vd m c (Pipeline.arrRef spec1 w) :=
  (Wd_arr m c w).symm
theorem hrestd (c : Dev nD) : ∀ b, b ∉ Finset.univ.image (Pipeline.arrRef spec1) → Vd m c b = Vc m c b :=
  fun b hb => Wd_of_ne m c b fun w e => hb (Finset.mem_image.mpr ⟨w, Finset.mem_univ _, e⟩)

theorem Wf_arr (c : Dev nD) (w : Fin cfg2.W) :
    Wf m c (Proc.devRef .tc (Pipeline.arrRef spec2 w)) = (dat2 (Ve m) c).arrAt w cfg2.N := by
  unfold Wf; exact Pipeline.withArrays_arr spec2 launch2.win.arr_inj c _ _ w
theorem Wf_of_ne (c : Dev nD) (b : Ref sig .tc) (hb : ∀ w, Pipeline.arrRef spec2 w ≠ b) :
    Wf m c (Proc.devRef .tc b) = We m c (Proc.devRef .tc b) := by
  unfold Wf; exact Pipeline.withArrays_of_ne spec2 c _ _ b hb
theorem hFf (c : Dev nD) (w : Fin cfg2.W) : (dat2 (Ve m) c).arrAt w cfg2.N = Vf m c (Pipeline.arrRef spec2 w) :=
  (Wf_arr m c w).symm
theorem hrestf (c : Dev nD) : ∀ b, b ∉ Finset.univ.image (Pipeline.arrRef spec2) → Vf m c b = Ve m c b :=
  fun b hb => Wf_of_ne m c b fun w e => hb (Finset.mem_image.mpr ⟨w, Finset.mem_univ _, e⟩)

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => fun c => dat1 (Vc m) c
  | ⟨1, _⟩ => fun c => dat2 (Ve m) c

abbrev Lk : GSem nD τ sig → Finset (HIx 1) := (K (F := F)).L
abbrev lvk : GSem nD τ sig → HIx 1 → ℕ := (K (F := F)).lev

abbrev Rr (c : Dev nD) : sProp 𝕄 :=
  iprop((∃ r, prngReg c r) ∗ ∃ W, ⌜(K (F := F)).WBelow (c : Thread nD τ) W 8⌝ ∗ owes (c : Thread nD τ) (0 : CellTallies nD τ sig (HIx 1)) W)

omit [FloatOps F] in

theorem below_of_bound (c : Dev nD) {cfg : Pipeline.Cfg sig Λ₀} {W : Waits sig (HIx 1)}
    (h : (↑W : Set (SemLoc sig × HIx 1)) ⊆ {p | (K (F := F)).lev ((c : Thread nD τ), p.1) p.2 ≤ 8} ∪ cfg.waitPairs (none : HIx 1)) :
    (K (F := F)).WBelow (c : Thread nD τ) W 8 := by
  intro p hp
  rcases h (Finset.mem_coe.mpr hp) with h' | ⟨w, s, e⟩
  · exact h'
  · rw [e]; exact Nat.zero_le _

set_option backward.isDefEq.respectTransparency.types false in

def reg0 : Pipeline.RegionSeg (pcfgs (F := F)) adm (pdats m) (none : HIx 1) defs₀ 𝒱₀ (Lk (F := F)) (lvk (F := F)) 0 where
  win := launch1.win.to₀
  block_pos := launch1.block_pos
  stage_whole := launch1.stage_whole
  K := PEmpty
  osem k := k.elim
  ho := Pipeline.OwnSemFacts.none _
  hbody c := (body_obligation1 (Vc m) c).loose
  hwaits := Pipeline.hwaits_of_owed_zero _ _ _ _ (Lk (F := F)) (lvk (F := F)) 0 fun _ _ => rfl
  pre c := iprop(held (c : Thread nD τ) uc (Wc m c) ∗ Rr c)
  post c := iprop(held (c : Thread nD τ) uc (Wd m c) ∗ Rr c)
  X c := iprop(∃ r, prngReg c r)
  Y c := iprop(∃ r, prngReg c r)
  Z c := Pipeline.unscopedRest (Ix := HIx 1) (Name := ℕ) (U := UU) (Lvl := ℕ) spec1 c (Vc m c)
  hentry c := by
    rw [Pipeline.ownSems0_none]
    have hsplit := Pipeline.arrays_of_unscopedBufs (p := 0) (pcfgs (F := F)) adm (pdats m) launch1.win launch1.arr_whole c
      ((pdats m 0 c).share_full fun _ => rfl) (Vc m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m 0 c).Φ 0 = ΦTc spec1 c from rfl]; unfold ΦTc
    iintro ⟨Hp, -, Hr⟩
    isplitl [Hr]; · iexact Hr
    iexact Hp
  hout c := by
    rw [Pipeline.ownSems0_none, show (pdats m 0 c).Φ (Fin.last _) = ΦTc spec1 c from rfl]; unfold ΦTc
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (Vc m c) (Vd m c) ((pdats m 0 c).arrAt · cfg1.N) (hFd m c) (hrestd m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr; · ipureintro; exact below_of_bound c hW
    iexact HO

set_option backward.isDefEq.respectTransparency.types false in

def reg1 : Pipeline.RegionSeg (pcfgs (F := F)) adm (pdats m) (none : HIx 1) defs₀ 𝒱₀ (Lk (F := F)) (lvk (F := F)) 1 where
  win := launch2.win.to₀
  block_pos := launch2.block_pos
  stage_whole := launch2.stage_whole
  K := PEmpty
  osem k := k.elim
  ho := Pipeline.OwnSemFacts.none _
  hbody c := (body_obligation2 (Ve m) c).loose
  hwaits := Pipeline.hwaits_of_owed_zero _ _ _ _ (Lk (F := F)) (lvk (F := F)) 1 fun _ _ => rfl
  pre c := iprop(held (c : Thread nD τ) uc (We m c) ∗ Rr c)
  post c := iprop(held (c : Thread nD τ) uc (Wf m c) ∗ Rr c)
  X c := iprop(∃ r, prngReg c r)
  Y c := iprop(∃ r, prngReg c r)
  Z c := Pipeline.unscopedRest (Ix := HIx 1) (Name := ℕ) (U := UU) (Lvl := ℕ) spec2 c (Ve m c)
  hentry c := by
    rw [Pipeline.ownSems0_none]
    have hsplit := Pipeline.arrays_of_unscopedBufs (p := 1) (pcfgs (F := F)) adm (pdats m) launch2.win launch2.arr_whole c
      ((pdats m 1 c).share_full fun _ => rfl) (Ve m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p (Finset.mem_coe.mp hp))
      iexact HO
    isplitl [Hp]; · iexact Hp
    iexact Hrest
  hin c := by
    rw [show (pdats m 1 c).Φ 0 = ΦTc spec2 c from rfl]; unfold ΦTc
    iintro ⟨Hp, -, Hr⟩
    isplitl [Hr]; · iexact Hr
    iexact Hp
  hout c := by
    rw [Pipeline.ownSems0_none, show (pdats m 1 c).Φ (Fin.last _) = ΦTc spec2 c from rfl]; unfold ΦTc
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (Ve m c) (Vf m c) ((pdats m 1 c).arrAt · cfg2.N) (hFf m c) (hrestf m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr; · ipureintro; exact below_of_bound c hW
    iexact HO

abbrev ei' : DevRef τ sig := Proc.devRef .tc (main_arg3 : Ref sig .tc)
abbrev ev' : DevRef τ sig := Proc.devRef .tc (main_v0 : Ref sig .tc)
abbrev sp' : DevRef τ sig := Proc.devRef .tc (main_v1 : Ref sig .tc)
abbrev callRefs : Finset (DevRef τ sig) := {ei', ev', sp'}
theorem callRefs_sub : callRefs ⊆ uc := by decide

omit [FloatOps F] in
theorem held_callRefs (d : Dev nD) (W : Valuation τ sig (Elt F)) :
    (held (T d) callRefs W : sProp 𝕄) = iprop((eiLoc d ↦{fullShare} W ei') ∗ (evLoc d ↦{fullShare} W ev') ∗ spLoc d ↦{fullShare} W sp') := by
  unfold held callRefs
  rw [SparseCore.bigSep_insert' (by decide), SparseCore.bigSep_insert' (by decide), bigSep_singleton]

theorem Wb_ei (d : Dev nD) : Wb m d ei' = m (eiLoc d) :=
  (opRow (F := F)).result_of_not_mem (Wa m d) (b := ei') (notW_row (by decide))
theorem Wb_ev (d : Dev nD) : Wb m d ev' = evOf m d := rfl
theorem Wc_ei (d : Dev nD) : Wc m d ei' = m (eiLoc d) := (Function.update_of_ne (show ei' ≠ sp' by decide) _ _).trans (Wb_ei m d)
theorem Wc_ev (d : Dev nD) : Wc m d ev' = evOf m d := (Function.update_of_ne (show ev' ≠ sp' by decide) _ _).trans (Wb_ev m d)
theorem Wc_sp (d : Dev nD) : Wc m d sp' = spOf m d := Function.update_self _ _ _
theorem Wc_rest (d : Dev nD) : ∀ b ∈ uc \ callRefs, Wc m d b = Wb m d b := fun b hb =>
  Function.update_of_ne (fun e => (Finset.mem_sdiff.mp hb).2 (by rw [e]; decide)) _ _

abbrev Gp (d : Dev nD) : sProp 𝕄 := Pipeline.ghostOn (pcfgs (F := F)) adm EP Finset.univ d

abbrev FIN (d : Dev nD) : sProp 𝕄 := held (T d) uc (Wf m d)

def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in

theorem tcSt_one (d : Dev nD) :
    ((K (F := F)).tcSt EH d 1 : sProp 𝕄)
      = iprop((∃ W, ⌜(K (F := F)).WBelow (T d) W (8 * 1)⌝ ∗ owes (T d) (0 : CellTallies nD τ sig (HIx 1)) W) ∗ tcTail (F := F) d) := by
  unfold SparseCore.Cfg.tcSt tcTail
  rw [(K (F := F)).Otc_end d (n := 1) (le_refl 1)]

omit [FloatOps F] in
theorem tcSt_one' (d : Dev nD) :
    ((K (F := F)).tcSt EH d ((0 : Fin 1).val + 1) : sProp 𝕄)
      = iprop((∃ W, ⌜(K (F := F)).WBelow (T d) W (8 * 1)⌝ ∗ owes (T d) (0 : CellTallies nD τ sig (HIx 1)) W) ∗ tcTail (F := F) d) :=
  tcSt_one d

omit [FloatOps F] in

theorem Gp_two (d : Dev nD) :
    (Gp (F := F) d : sProp 𝕄)
      = iprop((Pipeline.cellsGhost (Pipeline.pin (pcfgs (F := F)) adm) EP 0 d ∗ Pipeline.toksInit (Pipeline.pin (pcfgs (F := F)) adm) EP 0 d)
          ∗ (Pipeline.cellsGhost (Pipeline.pin (pcfgs (F := F)) adm) EP 1 d ∗ Pipeline.toksInit (Pipeline.pin (pcfgs (F := F)) adm) EP 1 d)) := by
  unfold Gp Pipeline.ghostOn Pipeline.PerCore.ghostOn
  rw [show (Finset.univ : Finset (Fin 2)) = {0, 1} by decide, SparseCore.bigSep_insert' (by decide), bigSep_singleton]

theorem reg0_pre (d : Dev nD) : (reg0 m).pre d = iprop(held (d : Thread nD τ) uc (Wc m d) ∗ Rr (F := F) d) := rfl
theorem reg0_post (d : Dev nD) : (reg0 m).post d = iprop(held (d : Thread nD τ) uc (Wd m d) ∗ Rr (F := F) d) := rfl
theorem reg1_pre (d : Dev nD) : (reg1 m).pre d = iprop(held (d : Thread nD τ) uc (We m d) ∗ Rr (F := F) d) := rfl
theorem reg1_post (d : Dev nD) : (reg1 m).post d = iprop(held (d : Thread nD τ) uc (Wf m d) ∗ Rr (F := F) d) := rfl

set_option backward.isDefEq.respectTransparency.types false in
set_option maxHeartbeats 4000000 in

theorem wp_region0 (d : Dev nD) (Φ : PUnit → sProp 𝕄) :
    iprop(boundary (T d) ∗ iprop(held (d : Thread nD τ) uc (Wc m d) ∗ Rr (F := F) d) ∗ levAts (Lk (F := F)) (lvk (F := F))
        ∗ Pipeline.cellsGhost (Pipeline.pin (pcfgs (F := F)) adm) EP 0 d ∗ Pipeline.toksInit (Pipeline.pin (pcfgs (F := F)) adm) EP 0 d
        ∗ (iprop(boundary (T d) ∗ iprop(held (d : Thread nD τ) uc (Wd m d) ∗ Rr (F := F) d)) -∗ Φ ⟨⟩))
      ⊢ wp frame (wpE ((K (F := F)).defs (D (F := F))) 𝒱 (T d) none) Set.univ
          (Prog.lift (.customCall (SparseCore.inner (Pipeline.entry (0 : Fin 2))) ())) Φ := by
  refine BIBase.Entails.trans ?_ ((K (F := F)).wp_liftProg (D (F := F)) 𝒱 (T d) Set.univ none (Prog.lift (.customCall (Pipeline.entry (0 : Fin 2)) ())) Φ)
  have h := Pipeline.RegionSeg.wp (pcfgs (F := F)) adm (pdats m) (none : HIx 1) cellOf_inj EP defs₀ 𝒱₀ (Lk (F := F)) (lvk (F := F)) (reg0 m) d
    none (fun _ h => nomatch h) (fun _ => .ret ⟨⟩) Φ
  rw [reg0_pre, reg0_post] at h
  refine BIBase.Entails.trans ?_ h
  iintro ⟨Hb, Hpre, Hlev, Hcg, Htk, Hk⟩
  isplitl [Hk]
  · iintro Hp; rw [wp_ret]; imodintro; iapply Hk; iexact Hp
  isplitl [Hb]; · iexact Hb
  isplitl [Hpre]; · iexact Hpre
  isplitl [Hlev]; · iexact Hlev
  isplitl [Hcg]; · iexact Hcg
  iexact Htk

set_option backward.isDefEq.respectTransparency.types false in
set_option maxHeartbeats 4000000 in

theorem wp_region1 (d : Dev nD) (Φ : PUnit → sProp 𝕄) :
    iprop(boundary (T d) ∗ iprop(held (d : Thread nD τ) uc (We m d) ∗ Rr (F := F) d) ∗ levAts (Lk (F := F)) (lvk (F := F))
        ∗ Pipeline.cellsGhost (Pipeline.pin (pcfgs (F := F)) adm) EP 1 d ∗ Pipeline.toksInit (Pipeline.pin (pcfgs (F := F)) adm) EP 1 d
        ∗ (iprop(boundary (T d) ∗ iprop(held (d : Thread nD τ) uc (Wf m d) ∗ Rr (F := F) d)) -∗ Φ ⟨⟩))
      ⊢ wp frame (wpE ((K (F := F)).defs (D (F := F))) 𝒱 (T d) none) Set.univ
          (Prog.lift (.customCall (SparseCore.inner (Pipeline.entry (1 : Fin 2))) ())) Φ := by
  refine BIBase.Entails.trans ?_ ((K (F := F)).wp_liftProg (D (F := F)) 𝒱 (T d) Set.univ none (Prog.lift (.customCall (Pipeline.entry (1 : Fin 2)) ())) Φ)
  have h := Pipeline.RegionSeg.wp (pcfgs (F := F)) adm (pdats m) (none : HIx 1) cellOf_inj EP defs₀ 𝒱₀ (Lk (F := F)) (lvk (F := F)) (reg1 m) d
    none (fun _ h => nomatch h) (fun _ => .ret ⟨⟩) Φ
  rw [reg1_pre, reg1_post] at h
  refine BIBase.Entails.trans ?_ h
  iintro ⟨Hb, Hpre, Hlev, Hcg, Htk, Hk⟩
  isplitl [Hk]
  · iintro Hp; rw [wp_ret]; imodintro; iapply Hk; iexact Hp
  isplitl [Hb]; · iexact Hb
  isplitl [Hpre]; · iexact Hpre
  isplitl [Hlev]; · iexact Hlev
  isplitl [Hcg]; · iexact Hcg
  iexact Htk

set_option backward.isDefEq.respectTransparency.types false in
theorem hmain (κ : GSem nD τ sig → ℕ) (d : Dev nD) :
    iprop((K (F := F)).ctx EH (P m) κ ∗ (K (F := F)).tcSt EH d 0 ∗ (K (F := F)).tcRes m ρ d ∗ Gp (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show unscopedBufs d (fun b => m ((SparseCore.T d).loc b)) = held (T d) uc (Wa m d) from Pipeline.unscopedBufs_held d (Wa m d)]
  simp only [main, wp_bind, wp_pure]
  iintro ⟨#Hctx, Hst, ⟨Hb, Hheld, Hsems, Hprng⟩, Hg⟩

  iapply (wp_hlo_within 𝒱 (SparseCore.T d) none Set.univ (op := opRow) (S := uc) opRow_sub (V := Wa m d)) $$ [Hb Hheld]
  · isplitl [Hb]; · iexact Hb
    iexact Hheld
  iintro ⟨Hb, Hheld⟩
  rw [wp_ret]

  ihave Hh := (Entails.of_eq (held_sub_split (T d) callRefs_sub (Wb m d))) $$ Hheld
  icases Hh with ⟨Hcall, Hrest⟩
  ihave Hc := (Entails.of_eq (held_callRefs d (Wb m d))) $$ Hcall
  icases Hc with ⟨Hei, Hev, Hsp⟩
  ihave Hparts := (call_split m d) $$ [Hei Hev Hsp]
  · rw [Wb_ei, Wb_ev]
    isplitl [Hei]; · iexact Hei
    isplitl [Hev]; · iexact Hev
    iexists _; iexact Hsp
  icases Hparts with ⟨Hkept, Hcores⟩
  iapply ((K (F := F)).wp_run (D (F := F)) 𝒱 (EH := EH) (P := P m) κ d 0) $$ [Hst Hcores Hkept Hrest Hb Hprng Hsems Hg]
  isplitr; · iexact Hctx
  isplitl [Hst]; · iexact Hst
  isplitl [Hcores]
  · iapply (Entails.of_eq (show (bigSep Finset.univ fun c : Fin ((K (F := F)).nCore 0) => (P m).st 0 d c)
        = bigSep Finset.univ fun c : Fin 2 => coreIn m d c from bigSep_congr fun _ _ => rfl)); iexact Hcores
  iintro ⟨Hst, Hdn⟩
  ihave Hdn' := (Entails.of_eq (show (bigSep Finset.univ fun c : Fin ((K (F := F)).nCore 0) => (P m).dn 0 d c)
        = bigSep Finset.univ fun c : Fin 2 => coreOut m d c from bigSep_congr fun _ _ => rfl)) $$ Hdn
  ihave Hback := (call_join m d) $$ [Hkept Hdn']
  · isplitl [Hkept]; · iexact Hkept
    iexact Hdn'
  icases Hback with ⟨Hei, Hev, Hsp⟩

  ihave Hheld : held (T d) uc (Wc m d) $$ [Hei Hev Hsp Hrest]
  · iapply (Entails.of_eq (held_sub_split (T d) callRefs_sub (Wc m d)).symm)
    isplitl [Hei Hev Hsp]
    · iapply (Entails.of_eq (held_callRefs d (Wc m d)).symm)
      rw [Wc_ei, Wc_ev, Wc_sp]
      isplitl [Hei]; · iexact Hei
      isplitl [Hev]; · iexact Hev
      iexact Hsp
    · iapply (Entails.of_eq (held_congr (c := T d) (Wc_rest m d)).symm); iexact Hrest

  ihave Hst1 := (Entails.of_eq (tcSt_one' (F := F) d)) $$ Hst
  icases Hst1 with ⟨⟨%Wt, %hWt, HO⟩, Htail⟩
  ihave Hlev := ((K (F := F)).ctx_levAts (EH := EH) (P := P m) κ) $$ Hctx
  icases Hlev with #Hlev
  ihave Hg' := (Entails.of_eq (Gp_two (F := F) d)) $$ Hg
  icases Hg' with ⟨⟨Hcg0, Htk0⟩, ⟨Hcg1, Htk1⟩⟩

  iapply (wp_region0 m d _) $$ [Hb Hheld Hprng HO Hcg0 Htk0 Htail Hcg1 Htk1 Hsems]
  isplitl [Hb]; · iexact Hb
  isplitl [Hheld Hprng HO]
  · isplitl [Hheld]; · iexact Hheld
    isplitl [Hprng]; · iexists _; iexact Hprng
    iexists Wt; isplitr; · ipureintro; exact hWt
    iexact HO
  isplitr; · iexact Hlev
  isplitl [Hcg0]; · iexact Hcg0
  isplitl [Htk0]; · iexact Htk0
  iintro ⟨Hb, ⟨Hheld, ⟨Hprng, %Wt1, %hWt1, HO⟩⟩⟩

  iapply (wp_hlo_within 𝒱 (SparseCore.T d) none Set.univ (op := opBias) (S := uc) opBias_sub (V := Wd m d)) $$ [Hb Hheld]
  · isplitl [Hb]; · iexact Hb
    iexact Hheld
  iintro ⟨Hb, Hheld⟩
  rw [wp_ret]
  imodintro
  iapply (wp_hlo_within 𝒱 (SparseCore.T d) none Set.univ (op := opCopy) (S := uc) opCopy_sub (V := (opBias (F := F)).result (Wd m d))) $$ [Hb Hheld]
  · isplitl [Hb]; · iexact Hb
    iexact Hheld
  iintro ⟨Hb, Hheld⟩
  rw [wp_ret]
  imodintro

  iapply (wp_region1 m d _) $$ [Hb Hheld Hprng HO Hcg1 Htk1 Htail Hsems]
  isplitl [Hb]; · iexact Hb
  isplitl [Hheld Hprng HO]
  · isplitl [Hheld]; · iexact Hheld
    isplitl [Hprng]; · iexact Hprng
    iexists Wt1; isplitr; · ipureintro; exact hWt1
    iexact HO
  isplitr; · iexact Hlev
  isplitl [Hcg1]; · iexact Hcg1
  isplitl [Htk1]; · iexact Htk1
  iintro ⟨Hb, ⟨Hheld, ⟨Hprng, %Wt2, %hWt2, HO⟩⟩⟩
  imodintro
  isplitl [HO Htail]
  · iapply (Entails.of_eq (tcSt_one (F := F) d).symm)
    isplitl [HO]
    · iexists Wt2; isplitr
      · ipureintro; exact hWt2
      · iexact HO
    iexact Htail
  iexact Hheld

end Cert.KI

end
-- ==== Proof.KI.TileArith.lean ====
/-
  The worker's loop arithmetic in closed form: trip counts, block offsets, and the printed range conditions at the
  values the loops carry.
-/
import proofs.«207122_g38740605010510_cont_8to1_b_1101_12_alg».proof.Proof.Gen.KernelIdeal
import proofs.«207122_g38740605010510_cont_8to1_b_1101_12_alg».proof.Proof.Spec

import Idealize.ShloMosaic.Lib.WordArith

namespace Cert.KI

open Cert.KernelIdeal Cert.KernelIdeal.Gen
open Idealize.ShloMosaic

def wN (L : grid0.Coords) : Nat := (L 1).val + 16 * (L 0).val

theorem t2_trips_wN : ∀ L : grid0.Coords, (k0_t2_loop L).trips = Cert.Spec.nBlocks (wN L) := by decide +kernel

theorem cond2_iff : ∀ (L : grid0.Coords) (t : Fin (k0_t2_loop L).trips),
    k0_cond2 L t (BitVec.ofNat 32 t.val) = 1#1 ↔ t.val + 1 < (k0_t2_loop L).trips := by decide +kernel
theorem cond3_iff : ∀ (L : grid0.Coords) (t : Fin (k0_t2_loop L).trips),
    k0_cond3 L t (BitVec.ofNat 32 t.val) = 1#1 ↔ t.val + 1 < (k0_t2_loop L).trips := by decide +kernel

theorem cond4_all : ∀ (L : grid0.Coords) (t : Fin (k0_t2_loop L).trips), k0_cond4 L t (BitVec.ofNat 32 t.val) = 1#1 := by decide +kernel
theorem cond5_all : ∀ (L : grid0.Coords) (t : Fin (k0_t2_loop L).trips), k0_cond5 L t (BitVec.ofNat 32 t.val) = 1#1 := by decide +kernel

theorem off3_eq : ∀ L : grid0.Coords, k0_off3 L = ![1, 1280 * Cert.Spec.firstBlock (wN L)] := by decide +kernel
theorem off5_eq : ∀ L : grid0.Coords, k0_off5 L = ![0, 1280 * Cert.Spec.firstBlock (wN L)] := by decide +kernel

theorem off7_eq : ∀ (L : grid0.Coords) (t : Fin (k0_t2_loop L).trips), t.val + 1 < (k0_t2_loop L).trips →
    k0_off7 L (BitVec.ofNat 32 t.val) = ![1, 1280 * (Cert.Spec.firstBlock (wN L) + t.val + 1)] := by decide +kernel
theorem off10_eq : ∀ (L : grid0.Coords) (t : Fin (k0_t2_loop L).trips), t.val + 1 < (k0_t2_loop L).trips →
    k0_off10 L (BitVec.ofNat 32 t.val) = ![0, 1280 * (Cert.Spec.firstBlock (wN L) + t.val + 1)] := by decide +kernel

theorem off13_eq : ∀ (L : grid0.Coords) (t : Fin (k0_t2_loop L).trips),
    k0_off13 L (BitVec.ofNat 32 t.val) = ![1, 1280 * (Cert.Spec.firstBlock (wN L) + t.val)] := by decide +kernel
theorem off16_eq : ∀ (L : grid0.Coords) (t : Fin (k0_t2_loop L).trips),
    k0_off16 L (BitVec.ofNat 32 t.val) = ![0, 1280 * (Cert.Spec.firstBlock (wN L) + t.val)] := by decide +kernel

theorem off6_eq (a : BitVec 32) : k0_off6 a = ![a.toNat % 2, 0, 0] := by
  show ![(Scalar.remui a 2#32).toNat, 0, 0] = _
  rw [WordArith.remui_of_ne_zero a 2#32 (by decide), BitVec.toNat_umod]; rfl
theorem off8_eq (a : BitVec 32) : k0_off8 a = ![a.toNat % 2] := by
  show ![(Scalar.remui a 2#32).toNat] = _
  rw [WordArith.remui_of_ne_zero a 2#32 (by decide), BitVec.toNat_umod]; rfl
theorem off9_eq (a : BitVec 32) : k0_off9 a = ![a.toNat % 2, 0, 0] := by
  show ![(Scalar.remui a 2#32).toNat, 0, 0] = _
  rw [WordArith.remui_of_ne_zero a 2#32 (by decide), BitVec.toNat_umod]; rfl
theorem off11_eq (a : BitVec 32) : k0_off11 a = ![a.toNat % 2] := by
  show ![(Scalar.remui a 2#32).toNat] = _
  rw [WordArith.remui_of_ne_zero a 2#32 (by decide), BitVec.toNat_umod]; rfl
theorem off12_eq (a : BitVec 32) : k0_off12 a = ![a.toNat % 2, 0, 0] := by
  show ![(Scalar.remui a 2#32).toNat, 0, 0] = _
  rw [WordArith.remui_of_ne_zero a 2#32 (by decide), BitVec.toNat_umod]; rfl
theorem off14_eq (a : BitVec 32) : k0_off14 a = ![a.toNat % 2] := by
  show ![(Scalar.remui a 2#32).toNat] = _
  rw [WordArith.remui_of_ne_zero a 2#32 (by decide), BitVec.toNat_umod]; rfl
theorem off15_eq (a : BitVec 32) : k0_off15 a = ![a.toNat % 2, 0, 0] := by
  show ![(Scalar.remui a 2#32).toNat, 0, 0] = _
  rw [WordArith.remui_of_ne_zero a 2#32 (by decide), BitVec.toNat_umod]; rfl
theorem off17_eq (a : BitVec 32) : k0_off17 a = ![a.toNat % 2] := by
  show ![(Scalar.remui a 2#32).toNat] = _
  rw [WordArith.remui_of_ne_zero a 2#32 (by decide), BitVec.toNat_umod]; rfl
theorem off18_eq (a : BitVec 32) : k0_off18 a = ![a.toNat % 2, 0, 0] := by
  show ![(Scalar.remui a 2#32).toNat, 0, 0] = _
  rw [WordArith.remui_of_ne_zero a 2#32 (by decide), BitVec.toNat_umod]; rfl
theorem off20_eq (a : BitVec 32) : k0_off20 a = ![a.toNat % 2, 0, 0] := by
  show ![(Scalar.remui a 2#32).toNat, 0, 0] = _
  rw [WordArith.remui_of_ne_zero a 2#32 (by decide), BitVec.toNat_umod]; rfl

theorem chk1_at : ∀ (L : grid0.Coords) (t : Fin (k0_t2_loop L).trips),
    k0_chk1 L t (BitVec.ofNat 32 (t.val + 1)) (BitVec.ofNat 32 t.val) (BitVec.ofNat 32 (t.val + 1)) (BitVec.ofNat 32 t.val) (BitVec.ofNat 32 t.val) := by decide +kernel

theorem chk2_all (L : grid0.Coords) (a : BitVec 32) : k0_chk2 L a := by
  intro _ x
  rw [off18_eq]
  have h2 := Nat.mod_lt a.toNat (show 0 < 2 by decide)
  match x with
  | 0 => show a.toNat % 2 + 1 ≤ 2; omega
  | 1 => show (0 : Nat) + 1 ≤ 1; omega
  | 2 => show (0 : Nat) + 1280 ≤ 1280; omega
theorem chk3_all (L : grid0.Coords) (a : BitVec 32) : k0_chk3 L a := by
  intro _ x
  rw [off20_eq]
  have h2 := Nat.mod_lt a.toNat (show 0 < 2 by decide)
  match x with
  | 0 => show a.toNat % 2 + 1 ≤ 2; omega
  | 1 => show (0 : Nat) + 1 ≤ 1; omega
  | 2 => show (0 : Nat) + 1280 ≤ 1280; omega

end Cert.KI
-- ==== Proof.KI.TileData.lean ====
/-
  A block of 1280 edges read sixteen at a time: the destination words and the weights of chunk k.
-/
import proofs.«207122_g38740605010510_cont_8to1_b_1101_12_alg».proof.Proof.KI.Common
import Idealize.ShloMosaic.Lib.WritesUnit
import Idealize.ShloMosaic.Lib.Pipeline.Value

noncomputable section

namespace Cert.KI

open Cert.KernelIdeal Cert.KernelIdeal.Gen

open Idealize.ShloMosaic
open Idealize.ShloMosaic.SparseCore (S V T)
open Idealize.SL Idealize.SL.RA Idealize.SL.BI
open scoped Idealize.SL.BI

variable {F : FTy → Type} [FloatOps F]

abbrev accM : Memref sig .scVector .vmem S10000 .f32 := Memref.whole cc0_scratch0
abbrev bufIM : Memref sig .scVector .vmem S2x1x1280 .i32 := Memref.whole cc0_scoped0
abbrev bufVM : Memref sig .scVector .vmem S2x1x1280 .f32 := Memref.whole cc0_scoped2
abbrev eiM : Memref sig .scVector .hbm S2x320000 .i32 := Memref.whole main_arg3_scv
abbrev evM : Memref sig .scVector .hbm S1x320000 .f32 := Memref.whole main_v0_scv
abbrev spM : Memref sig .scVector .hbm S32x10000 .f32 := Memref.whole main_v1_scv

theorem slot_inb (p : Fin 2) : ∀ a, (![p.val, 0, 0] : Fin 3 → Nat) a + S1x1x1280.size a ≤ S2x1x1280.size a := by
  intro a
  match a with
  | 0 => show p.val + 1 ≤ 2; omega
  | 1 => show 0 + 1 ≤ 1; omega
  | 2 => show 0 + 1280 ≤ 1280; omega

abbrev slotR (p : Fin 2) : Rect S2x1x1280 := Rect.unit (s := S2x1x1280) ![p.val, 0, 0] S1x1x1280.size (slot_inb p)
abbrev slotI (p : Fin 2) : Memref sig .scVector .vmem S1x1280 .i32 :=
  ((bufIM).slice (slotR p) (fun _ => rfl)).squeeze S1x1280 squeezes_S1x1x1280_S1x1280
abbrev slotV (p : Fin 2) : Memref sig .scVector .vmem S1x1280 .f32 :=
  ((bufVM).slice (slotR p) (fun _ => rfl)).squeeze S1x1280 squeezes_S1x1x1280_S1x1280

theorem blkI_inb (b : Nat) (hb : b < 250) : ∀ a, (![1, 1280 * b] : Fin 2 → Nat) a + S1x1280.size a ≤ S2x320000.size a := by
  intro a
  match a with
  | 0 => show 1 + 1 ≤ 2; omega
  | 1 => show 1280 * b + 1280 ≤ 320000; omega
theorem blkV_inb (b : Nat) (hb : b < 250) : ∀ a, (![0, 1280 * b] : Fin 2 → Nat) a + S1x1280.size a ≤ S1x320000.size a := by
  intro a
  match a with
  | 0 => show 0 + 1 ≤ 1; omega
  | 1 => show 1280 * b + 1280 ≤ 320000; omega

abbrev blkI (b : Nat) (hb : b < 250) : Memref sig .scVector .hbm S1x1280 .i32 :=
  (eiM).slice (Rect.unit (s := S2x320000) ![1, 1280 * b] S1x1280.size (blkI_inb b hb)) (fun _ => rfl)
abbrev blkV (b : Nat) (hb : b < 250) : Memref sig .scVector .hbm S1x1280 .f32 :=
  (evM).slice (Rect.unit (s := S1x320000) ![0, 1280 * b] S1x1280.size (blkV_inb b hb)) (fun _ => rfl)

def HoldsI (ei : IVec Cert.Spec.SEnds 32) (p : Fin 2) (b : Nat) (c : (slotI p).view.ty.Contents (Elt F)) : Prop :=
  ∀ x : S1x1280.Idx, (slotI p).view.read (Elt F) c x
    = if h : 1280 * b + (x 1).val < 320000 then ei (ValueIdx.ix2 (1 : Fin 2) ⟨1280 * b + (x 1).val, h⟩) else 0

def HoldsV (ev : Vec F Cert.Spec.SEdgesRow .f32) (p : Fin 2) (b : Nat) (c : (slotV p).view.ty.Contents (Elt F)) : Prop :=
  ∀ x : S1x1280.Idx, (slotV p).view.read (Elt F) c x
    = if h : 1280 * b + (x 1).val < 320000 then ev (ValueIdx.ix2 (0 : Fin 1) ⟨1280 * b + (x 1).val, h⟩)
      else ev (ValueIdx.ix2 (0 : Fin 1) ⟨0, by decide⟩)

theorem holdsI_written (ei : IVec Cert.Spec.SEnds 32) (p : Fin 2) (b : Nat) (hb : b < 250) (f : (slotI p).view.ty.Contents (Elt F)) :
    HoldsI (F := F) ei p b ((slotI p).view.writes (Elt F) f
      [⟨Rect.whole S1x1280, ReadAs.same.apply (View.read (Elt F) (blkI b hb).view ei)⟩]) := by
  intro x
  have hw := View.read_writes_cons_emb (slotI p).view f (Rect.whole S1x1280)
    (ReadAs.same.apply (View.read (Elt F) (blkI b hb).view ei)) [] x
  rw [Rect.emb_whole_apply] at hw
  rw [hw]
  have hx1 : (x 1).val < 1280 := (x 1).isLt
  have hlt : 1280 * b + (x 1).val < 320000 := by omega
  rw [dif_pos hlt]

  show ei ((blkI b hb).view.emb x) = _
  have key : ((blkI b hb).view.emb x : S2x320000.Idx) = ValueIdx.ix2 (1 : Fin 2) ⟨1280 * b + (x 1).val, hlt⟩ := by
    funext (a : Fin 2)
    apply Fin.ext
    have hx0 : (x 0).val < 1 := (x 0).isLt
    match a with
    | 0 => show 1 + 1 * (x 0).val = 1; omega
    | 1 => show 1280 * b + 1 * (x 1).val = 1280 * b + (x 1).val; omega
  exact congrArg ei key
theorem holdsV_written (ev : Vec F Cert.Spec.SEdgesRow .f32) (p : Fin 2) (b : Nat) (hb : b < 250) (f : (slotV p).view.ty.Contents (Elt F)) :
    HoldsV (F := F) ev p b ((slotV p).view.writes (Elt F) f
      [⟨Rect.whole S1x1280, ReadAs.same.apply (View.read (Elt F) (blkV b hb).view ev)⟩]) := by
  intro x
  have hw := View.read_writes_cons_emb (slotV p).view f (Rect.whole S1x1280)
    (ReadAs.same.apply (View.read (Elt F) (blkV b hb).view ev)) [] x
  rw [Rect.emb_whole_apply] at hw
  rw [hw]
  have hx1 : (x 1).val < 1280 := (x 1).isLt
  have hlt : 1280 * b + (x 1).val < 320000 := by omega
  rw [dif_pos hlt]

  show ev ((blkV b hb).view.emb x) = _
  have key : ((blkV b hb).view.emb x : S1x320000.Idx) = ValueIdx.ix2 (0 : Fin 1) ⟨1280 * b + (x 1).val, hlt⟩ := by
    funext (a : Fin 2)
    apply Fin.ext
    have hx0 : (x 0).val < 1 := (x 0).isLt
    match a with
    | 0 => show 0 + 1 * (x 0).val = 0; omega
    | 1 => show 1280 * b + 1 * (x 1).val = 1280 * b + (x 1).val; omega
  exact congrArg ev key

theorem idx_of_holds (ei : IVec Cert.Spec.SEnds 32) (p : Fin 2) (b : Nat) (c : (slotI p).view.ty.Contents (Elt F)) (h : HoldsI (F := F) ei p b c)
    (k : Fin k0_t3_loop.trips) (inb : ∀ a, (k0_off19 k) a + S1x16.size a ≤ S1x1280.size a) :
    (shapeCast S16 ((slotI p).view.readAt (Elt F) (Rect.unit (s := S1x1280) (k0_off19 k) S1x16.size inb).toLoadRect c) shapeCasts_S1x16_S16 : IVec S16 32)
      = Cert.Spec.dstChunk ei b k.val := by
  funext l

  have e19 := k0_off19_eq k
  generalize k0_off19 k = off at inb e19 ⊢
  subst e19

  have hrm : (S1x16.rowMajor (ValueIdx.ix2 (0 : Fin 1) (l 0))).val = (S16.rowMajor l).val := by
    rw [Shape.rowMajor_val_two, Shape.rowMajor_val_one]
    show 0 * 16 + (l 0).val = (l 0).val
    omega
  rw [shapeCast_apply _ shapeCasts_S1x16_S16 l (ValueIdx.ix2 (0 : Fin 1) (l 0)) hrm, View.readAt_apply]
  unfold HoldsI at h
  rw [h]
  have gen : ∀ n m : Nat, n = m →
      (if hh : n < 320000 then ei (ValueIdx.ix2 (1 : Fin 2) ⟨n, hh⟩) else (0 : BitVec 32))
        = (if hh : m < 320000 then ei (ValueIdx.ix2 (1 : Fin 2) ⟨m, hh⟩) else 0) := by
    intro n m e; subst e; rfl
  exact gen _ _ (by show 1280 * b + (16 * k.val + 1 * (l 0).val) = 1280 * b + 16 * k.val + (l 0).val; omega)

theorem val_of_holds (ev : Vec F Cert.Spec.SEdgesRow .f32) (p : Fin 2) (b : Nat) (c : (slotV p).view.ty.Contents (Elt F)) (h : HoldsV (F := F) ev p b c)
    (k : Fin k0_t3_loop.trips) (inb : ∀ a, (k0_off19 k) a + S1x16.size a ≤ S1x1280.size a) :
    k0_pay2 (F := F) ((slotV p).view.readAt (Elt F) (Rect.unit (s := S1x1280) (k0_off19 k) S1x16.size inb).toLoadRect c)
      = Cert.Spec.wtChunk ev b k.val := by
  funext l

  have e19 := k0_off19_eq k
  generalize k0_off19 k = off at inb e19 ⊢
  subst e19

  have hrm : (S1x16.rowMajor (ValueIdx.ix2 (0 : Fin 1) (l 0))).val = (S16.rowMajor l).val := by
    rw [Shape.rowMajor_val_two, Shape.rowMajor_val_one]
    show 0 * 16 + (l 0).val = (l 0).val
    omega
  simp only [k0_pay2]
  rw [shapeCast_apply _ shapeCasts_S1x16_S16 l (ValueIdx.ix2 (0 : Fin 1) (l 0)) hrm, View.readAt_apply]
  unfold HoldsV at h
  rw [h]
  have gen : ∀ n m : Nat, n = m →
      (if hh : n < 320000 then ev (ValueIdx.ix2 (0 : Fin 1) ⟨n, hh⟩) else ev (ValueIdx.ix2 (0 : Fin 1) ⟨0, by decide⟩))
        = (if hh : m < 320000 then ev (ValueIdx.ix2 (0 : Fin 1) ⟨m, hh⟩) else ev (ValueIdx.ix2 (0 : Fin 1) ⟨0, by decide⟩)) := by
    intro n m e; subst e; rfl
  exact gen _ _ (by show 1280 * b + (16 * k.val + 1 * (l 0).val) = 1280 * b + 16 * k.val + (l 0).val; omega)

end Cert.KI

end
-- ==== Proof.KI.TileRow.lean ====
/-
  The worker's row of the partial sums holds, after the copy, the worker's accumulator.
-/
import proofs.«207122_g38740605010510_cont_8to1_b_1101_12_alg».proof.Proof.KI.Common
import proofs.«207122_g38740605010510_cont_8to1_b_1101_12_alg».proof.Proof.KI.TileArith
import proofs.«207122_g38740605010510_cont_8to1_b_1101_12_alg».proof.Proof.KI.TileData

noncomputable section

namespace Cert.KI

open Cert.KernelIdeal Cert.KernelIdeal.Gen

open Idealize.ShloMosaic
open Idealize.ShloMosaic.SparseCore (S V T)
open Idealize.SL Idealize.SL.RA Idealize.SL.BI
open scoped Idealize.SL.BI

variable {F : FTy → Type} [FloatOps F]

abbrev cL (L : grid0.Coords) : Fin 2 := ⟨(L 0).val, (L 0).isLt⟩
abbrev sL (L : grid0.Coords) : Fin 16 := ⟨(L 1).val, (L 1).isLt⟩

abbrev wL (L : grid0.Coords) : Fin 32 := workerOf (cL L) (sL L)
abbrev rL (L : grid0.Coords) : Fin 32 := rowOf (cL L) (sL L)

abbrev rowK (L : grid0.Coords) : Rect S32x10000 := Rect.unit (s := S32x10000) (k0_off36 L) S1x10000.size (k0_off36_inb L)
abbrev rowM (L : grid0.Coords) : Memref sig .scVector .hbm S10000 .f32 :=
  ((spM).slice (rowK L) (fun _ => rfl)).squeeze S10000 squeezes_S1x10000_S10000

theorem row_written (m : (ℓ : Loc nD τ sig) → Buf (Elt F) ℓ) (d : Dev nD) (L : grid0.Coords) (f0 : (rowM L).view.ty.Contents (Elt F)) :
    ∀ i ∈ (rowM L).view.set,
      (rowM L).view.writes (Elt F) f0
        [⟨Rect.whole S10000, ReadAs.same.apply (View.read (Elt F) (accM).view
          (Cert.Spec.workerAcc (m (eiLoc d)) (evOf m d) (wN L) : Vec F Cert.Spec.SAcc .f32))⟩] i = spOf m d i := by
  intro i hi
  obtain ⟨x, -, rfl⟩ := Finset.mem_map.mp hi

  have hw := View.read_writes_cons_emb (rowM L).view f0 (Rect.whole S10000)
    (ReadAs.same.apply (View.read (Elt F) (accM).view
      (Cert.Spec.workerAcc (m (eiLoc d)) (evOf m d) (wN L) : Vec F Cert.Spec.SAcc .f32))) [] x
  rw [Rect.emb_whole_apply, View.read_apply] at hw
  refine Eq.trans (cast_eq _ _).symm (hw.trans ?_)

  have hy : Shape.reshapeEquiv squeezes_S1x10000_S10000.numel_eq x = (ValueIdx.ix2 (0 : Fin 1) (x 0) : S1x10000.Idx) :=
    Shape.reshapeEquiv_eq_of_rowMajor _ (by
      rw [Shape.rowMajor_val_two, Shape.rowMajor_val_one]
      show 0 * 10000 + (x 0).val = (x 0).val
      omega)
  have hemb : ((rowM L).view.emb x : S32x10000.Idx) = (rowK L).emb (ValueIdx.ix2 (0 : Fin 1) (x 0)) := by
    show (rowK L).emb (Shape.reshapeEquiv squeezes_S1x10000_S10000.numel_eq x) = _
    rw [hy]
  have h0 : (((rowM L).view.emb x : S32x10000.Idx) 0).val = 2 * (L 1).val + (L 0).val := by
    rw [hemb]
    show k0_off36 L 0 + 1 * 0 = _
    rw [k0_off36_eq]
    show 2 * (L 1).val + (L 0).val + 1 * 0 = _
    omega
  have h1 : (ValueIdx.ix1 (n := 10000) (((rowM L).view.emb x : S32x10000.Idx) 1) : Cert.Spec.SAcc.Idx) = x := by
    rw [hemb]
    funext (a : Fin 1)
    apply Fin.ext
    match a with
    | 0 =>
      show k0_off36 L 1 + 1 * (x 0).val = (x 0).val
      rw [k0_off36_eq]
      show 0 + 1 * (x 0).val = (x 0).val
      omega

  have key : ∀ (w w' : Nat) (j j' : Cert.Spec.SAcc.Idx), w = w' → j = j' →
      Cert.Spec.workerAcc (m (eiLoc d)) (evOf m d) w j = Cert.Spec.workerAcc (m (eiLoc d)) (evOf m d) w' j' := by
    intro w w' j j' e1 e2; rw [e1, e2]
  refine key _ _ _ _ ?_ ?_
  · show wN L = Cert.Spec.workerOfRow (((rowM L).view.emb x : S32x10000.Idx) 0).val
    rw [h0]
    unfold wN Cert.Spec.workerOfRow
    have := (L 0).isLt
    have h2 : (L 0).val < 2 := this
    omega
  · exact h1.symm

end Cert.KI

end
-- ==== Proof.KI.TileInv.lean ====
/-
  The invariants of the worker's loops: before block t the accumulator is the fold of the first t blocks, and before
  chunk k of a block the fold of that block's first k chunks on top.
-/
import proofs.«207122_g38740605010510_cont_8to1_b_1101_12_alg».proof.Proof.KI.Common
import proofs.«207122_g38740605010510_cont_8to1_b_1101_12_alg».proof.Proof.KI.TileArith
import proofs.«207122_g38740605010510_cont_8to1_b_1101_12_alg».proof.Proof.KI.TileData
import proofs.«207122_g38740605010510_cont_8to1_b_1101_12_alg».proof.Proof.KI.TileRow
import Idealize.ShloMosaic.Lib.WritesUnit

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

theorem cond1_all : ∀ L : grid0.Coords, k0_cond1 L = 1#1 := by decide +kernel
theorem t1_trips : k0_t1_loop.trips = 625 := by decide +kernel
theorem t3_trips : k0_t3_loop.trips = 80 := by decide +kernel
theorem t2_trips : ∀ L : grid0.Coords, (k0_t2_loop L).trips = Cert.Spec.nBlocks ((L 1).val + 16 * (L 0).val) := by decide +kernel
theorem t4_trips (L : grid0.Coords) : (k0_t4_loop L).trips = 0 := Nat.le_zero.mp (k0_t4_abs L).2.1

variable (m : (ℓ : Loc nD τ sig) → Buf (Elt F) ℓ) (d : Dev nD)

abbrev thr (L : grid0.Coords) : Thread nD τ := V d (cV L) (jV L)

abbrev dcell (L : grid0.Coords) (k : Fin 13) : GSem nD τ sig := (thr d L, SemLoc.dma (k : DmaSem sig))

omit [FloatOps F] in
theorem dcell_mem (L : grid0.Coords) (k : Fin 13) : dcell d L k ∈ ownCells (thr d L) :=
  (mem_ownCells (g := dcell d L k)).mpr ⟨rfl, by show (SemLoc.dma (k : DmaSem sig) : SemLoc sig).isScoped .scVector = true; revert k; decide⟩

omit [FloatOps F] in
theorem dcell_ne (L : grid0.Coords) {j k : Fin 13} (h : j ≠ k) : dcell d L j ≠ dcell d L k := by
  intro e
  have e2 : (SemLoc.dma (j : DmaSem sig) : SemLoc sig) = SemLoc.dma (k : DmaSem sig) := congrArg Prod.snd e
  exact h (SemLoc.dma.inj e2)

omit [FloatOps F] in

theorem ownSems0_V (L : grid0.Coords) :
    (ownSems0 (thr d L) : sProp 𝕄)
      = iprop(semVal (dcell d L 0) 0 ∗ semVal (dcell d L 1) 0 ∗ semVal (dcell d L 2) 0 ∗ semVal (dcell d L 3) 0 ∗ semVal (dcell d L 4) 0
          ∗ bigSep (((((ownCells (thr d L)).erase (dcell d L 0)).erase (dcell d L 1)).erase (dcell d L 2)).erase (dcell d L 3) |>.erase (dcell d L 4))
              fun g => semVal g 0) := by
  unfold SparseCore.Cfg.ownSems0
  rw [SparseCore.bigSep_erase' (dcell_mem d L 0),
    SparseCore.bigSep_erase' (Finset.mem_erase.mpr ⟨dcell_ne d L (by decide), dcell_mem d L 1⟩),
    SparseCore.bigSep_erase' (Finset.mem_erase.mpr ⟨dcell_ne d L (by decide), Finset.mem_erase.mpr ⟨dcell_ne d L (by decide), dcell_mem d L 2⟩⟩),
    SparseCore.bigSep_erase' (Finset.mem_erase.mpr ⟨dcell_ne d L (by decide), Finset.mem_erase.mpr ⟨dcell_ne d L (by decide),
      Finset.mem_erase.mpr ⟨dcell_ne d L (by decide), dcell_mem d L 3⟩⟩⟩),
    SparseCore.bigSep_erase' (Finset.mem_erase.mpr ⟨dcell_ne d L (by decide), Finset.mem_erase.mpr ⟨dcell_ne d L (by decide),
      Finset.mem_erase.mpr ⟨dcell_ne d L (by decide), Finset.mem_erase.mpr ⟨dcell_ne d L (by decide), dcell_mem d L 4⟩⟩⟩⟩)]

omit [FloatOps F] in

theorem ownBufs_V (L : grid0.Coords) :
    (ownBufs (thr d L) : sProp 𝕄)
      = iprop((∃ f, (thr d L).loc cc0_scratch0 ↦{fullShare} f) ∗ (∃ f, (thr d L).loc cc0_scoped0 ↦{fullShare} f)
          ∗ (∃ f, (thr d L).loc cc0_scoped2 ↦{fullShare} f)
          ∗ bigSep ((((ownRefs (τ := τ) (.scVector (cV L) (jV L))).erase ((Proc.scVector (cV L) (jV L)).devRef cc0_scratch0)).erase
              ((Proc.scVector (cV L) (jV L)).devRef cc0_scoped0)).erase ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scoped0 : Ref sig .scVector) ≠ cc0_scratch0 by decide),
    SparseCore.Cfg.mem_ownRefs_of_owner (p := Proc.scVector (cV L) (jV L)) (b := (Proc.scVector (cV L) (jV L)).devRef cc0_scoped0) rfl⟩),
    SparseCore.bigSep_erase' (Finset.mem_erase.mpr ⟨fun e => absurd (Proc.devRef_injective _ e) (show (cc0_scoped2 : Ref sig .scVector) ≠ cc0_scoped0 by decide),
      Finset.mem_erase.mpr ⟨fun e => absurd (Proc.devRef_injective _ e) (show (cc0_scoped2 : Ref sig .scVector) ≠ cc0_scratch0 by decide),
    SparseCore.Cfg.mem_ownRefs_of_owner (p := Proc.scVector (cV L) (jV L)) (b := (Proc.scVector (cV L) (jV L)).devRef cc0_scoped2) rfl⟩⟩)]

omit [FloatOps F] in
theorem pts_ei (L : grid0.Coords) (q : PosShare TreeShare) (f : Buf (Elt F) (eiLoc d)) :
    ((eiM).view.loc (thr d L) ↦{q} f : sProp 𝕄) = eiLoc d ↦{q} f := by
  simp only [Memref.view_whole, View.set_whole]
omit [FloatOps F] in
theorem pts_ev (L : grid0.Coords) (q : PosShare TreeShare) (f : Buf (Elt F) (evLoc d)) :
    ((evM).view.loc (thr d L) ↦{q} f : sProp 𝕄) = evLoc d ↦{q} f := by
  simp only [Memref.view_whole, View.set_whole]
omit [FloatOps F] in
theorem pts_acc (L : grid0.Coords) (f : Buf (Elt F) ((thr d L).loc cc0_scratch0)) :
    ((accM).view.loc (thr d L) ↦{fullShare} f : sProp 𝕄) = (thr d L).loc cc0_scratch0 ↦{fullShare} f := rfl
omit [FloatOps F] in
theorem pts_bufI (L : grid0.Coords) (f : Buf (Elt F) ((thr d L).loc cc0_scoped0)) :
    ((bufIM).view.loc (thr d L) ↦{fullShare} f : sProp 𝕄) = (thr d L).loc cc0_scoped0 ↦{fullShare} f := rfl
omit [FloatOps F] in
theorem pts_bufV (L : grid0.Coords) (f : Buf (Elt F) ((thr d L).loc cc0_scoped2)) :
    ((bufVM).view.loc (thr d L) ↦{fullShare} f : sProp 𝕄) = (thr d L).loc cc0_scoped2 ↦{fullShare} f := rfl

omit [FloatOps F] in
theorem rowK_eq (L : grid0.Coords) : rowK L = spRow (rL L) := by
  unfold rowK spRow Rect.part Rect.block
  congr 1 <;> funext a
  · rw [k0_off36_eq]
    match a with
    | 0 => simp [Shape.partIx, Shape.partSize, rowOf]
    | 1 => simp [Shape.partIx, Shape.partSize]
  · match a with
    | 0 => simp [Shape.partSize]
    | 1 => simp [Shape.partSize]

omit [FloatOps F] in
theorem set_rowM (L : grid0.Coords) : (rowM L).view.set = spRowSet (rL L) := by
  show (((spM).view.slice (rowK L)).reshape S10000 squeezes_S1x10000_S10000.numel_eq).set = ((spM).view.slice (spRow (rL L))).set
  rw [View.set_reshape]
  exact rowK_eq L ▸ rfl

omit [FloatOps F] in
theorem pts_rowM (L : grid0.Coords) (f : Buf (Elt F) (spLoc d)) :
    ((rowM L).view.loc (thr d L) ↦[(rowM L).view.set]{fullShare} f : sProp 𝕄) = spRowPts d (rL L) f := by
  rw [set_rowM]

theorem set_slotI (p : Fin 2) : (slotI p).view.set = (slotR p).set := by
  show (((bufIM).view.slice (slotR p)).reshape S1x1280 squeezes_S1x1x1280_S1x1280.numel_eq).set = _
  rw [View.set_reshape]; exact View.set_slice_whole _ _
theorem set_slotV (p : Fin 2) : (slotV p).view.set = (slotR p).set := by
  show (((bufVM).view.slice (slotR p)).reshape S1x1280 squeezes_S1x1x1280_S1x1280.numel_eq).set = _
  rw [View.set_reshape]; exact View.set_slice_whole _ _

theorem slots_disjoint : Disjoint (slotR 0).set (slotR 1).set :=
  Rect.unit_disjoint (a := (0 : Fin 3)) (Or.inl (by decide))

theorem card_slotR (p : Fin 2) : (slotR p).set.card = 1280 := by
  have h := ((bufIM).view.slice (slotR p)).card_set
  rw [show ((bufIM).view.slice (slotR p)).set = (slotR p).set from View.set_slice_whole _ _] at h
  exact h

theorem slots_cover : (slotR 0).set ∪ (slotR 1).set = Finset.univ := by
  apply Finset.eq_univ_of_card
  rw [Finset.card_union_of_disjoint slots_disjoint, card_slotR, card_slotR, Shape.card_idx]
  rfl

omit [FloatOps F] in

theorem bufI_slots (L : grid0.Coords) (f : Buf (Elt F) ((bufIM).view.loc (thr d L))) :
    ((bufIM).view.loc (thr d L) ↦{fullShare} f : sProp 𝕄)
      ⊣⊢ iprop(((slotI 0).view.loc (thr d L) ↦[(slotI 0).view.set]{fullShare} f) ∗ ((slotI 1).view.loc (thr d L) ↦[(slotI 1).view.set]{fullShare} f)) := by
  rw [set_slotI, set_slotI]
  have h : ((bufIM).view.loc (thr d L) ↦[(slotR 0).set ∪ (slotR 1).set]{fullShare} f : sProp 𝕄) ⊣⊢ _ := pointsTo_union slots_disjoint
  rw [slots_cover] at h
  exact h
omit [FloatOps F] in
theorem bufV_slots (L : grid0.Coords) (f : Buf (Elt F) ((bufVM).view.loc (thr d L))) :
    ((bufVM).view.loc (thr d L) ↦{fullShare} f : sProp 𝕄)
      ⊣⊢ iprop(((slotV 0).view.loc (thr d L) ↦[(slotV 0).view.set]{fullShare} f) ∗ ((slotV 1).view.loc (thr d L) ↦[(slotV 1).view.set]{fullShare} f)) := by
  rw [set_slotV, set_slotV]
  have h : ((bufVM).view.loc (thr d L) ↦[(slotR 0).set ∪ (slotR 1).set]{fullShare} f : sProp 𝕄) ⊣⊢ _ := pointsTo_union slots_disjoint
  rw [slots_cover] at h
  exact h

omit [FloatOps F] in

theorem tok_split {ℓ : Loc nD τ sig} (f : Buf (Elt F) ℓ) (q : PosShare TreeShare) (k : ℕ) :
    (ℓ ↦{Transfers.shareDrop q k} f : sProp 𝕄) ⊣⊢ iprop((ℓ ↦{Transfers.shareDrop q (k + 1)} f) ∗ ℓ ↦{Transfers.shareTokN q k} f) :=
  pointsTo_share (PosShare.mem_left_op_right _)
omit [FloatOps F] in
theorem tok_split0 {ℓ : Loc nD τ sig} (f : Buf (Elt F) ℓ) (q : PosShare TreeShare) :
    (ℓ ↦{q} f : sProp 𝕄) ⊣⊢ iprop((ℓ ↦{Transfers.shareDrop q 1} f) ∗ ℓ ↦{Transfers.shareTokN q 0} f) :=
  tok_split f q 0

abbrev fbL (L : grid0.Coords) : Nat := Cert.Spec.firstBlock (wN L)
abbrev nBL (L : grid0.Coords) : Nat := Cert.Spec.nBlocks (wN L)

theorem wN_lt (L : grid0.Coords) : wN L < 32 := by
  have h0 : (L 0).val < 2 := (L 0).isLt
  have h1 : (L 1).val < 16 := (L 1).isLt
  unfold wN; omega

theorem blk_lt (L : grid0.Coords) {t : Nat} (ht : t < nBL L) : fbL L + t < 250 := by
  have h := Cert.Spec.firstBlock_add_nBlocks_le (wN L) (wN_lt L)
  have ht' : t < Cert.Spec.nBlocks (wN L) := ht
  show Cert.Spec.firstBlock (wN L) + t < 250
  omega

def car (n t : Nat) : BitVec 32 × BitVec 32 × BitVec 32 × BitVec 32 × BitVec 32 :=
  (BitVec.ofNat 32 (min (t + 1) n), BitVec.ofNat 32 t, BitVec.ofNat 32 (min (t + 1) n), BitVec.ofNat 32 t,
    BitVec.ofNat 32 (if t < n then t else 0))

def par (t : Nat) : Fin 2 := ⟨t % 2, Nat.mod_lt _ (by decide)⟩

theorem toNat_par (n : Nat) (hn : n < 1000) : (BitVec.ofNat 32 n).toNat % 2 = (par n).val := by
  have h : n % 2 ^ 32 = n := Nat.mod_eq_of_lt (by omega)
  rw [BitVec.toNat_ofNat, h]; rfl

theorem par_cases (t : Nat) : ∃ p p' : Fin 2, par t = p ∧ par (t + 1) = p' ∧ par (t + 2) = p ∧ ((p = 0 ∧ p' = 1) ∨ (p = 1 ∧ p' = 0)) := by
  rcases Nat.mod_two_eq_zero_or_one t with h | h
  · exact ⟨0, 1, Fin.ext h, Fin.ext (by show (t + 1) % 2 = 1; omega), Fin.ext (by show (t + 2) % 2 = 0; omega), .inl ⟨rfl, rfl⟩⟩
  · exact ⟨1, 0, Fin.ext h, Fin.ext (by show (t + 1) % 2 = 0; omega), Fin.ext (by show (t + 2) % 2 = 1; omega), .inr ⟨rfl, rfl⟩⟩

section Inv

variable (L : grid0.Coords)

def idleG (p : Fin 2) (cI cV : Fin 13) (qI qV : PosShare TreeShare) : sProp 𝕄 :=
  iprop((∃ f, (slotI p).view.loc (thr d L) ↦[(slotI p).view.set]{fullShare} f) ∗ (∃ f, (slotV p).view.loc (thr d L) ↦[(slotV p).view.set]{fullShare} f)
    ∗ semVal (dcell d L cI) 0 ∗ semVal (dcell d L cV) 0
    ∗ ((eiM).view.loc (thr d L) ↦{qI} m (eiLoc d)) ∗ ((evM).view.loc (thr d L) ↦{qV} evOf m d))

def inflightG (p : Fin 2) (cI cV : Fin 13) (qI qV : PosShare TreeShare) (b : Nat) (hb : b < 250) : sProp 𝕄 :=
  iprop(Transfers.Flight (countersEmb : UEmb Counters 𝕄) (thr d L) (SemLoc.dma (cI : DmaSem sig)) default 40960
        iprop((∃ c, ⌜HoldsI (F := F) (m (eiLoc d)) p b c⌝ ∗ (slotI p).view.loc (thr d L) ↦[(slotI p).view.set]{fullShare} c)
          ∗ ((eiM).view.loc (thr d L) ↦[(blkI b hb).view.set]{qI} m (eiLoc d)))
    ∗ ((eiM).view.loc (thr d L) ↦[Finset.univ \ (blkI b hb).view.set]{qI} m (eiLoc d))
    ∗ Transfers.Flight (countersEmb : UEmb Counters 𝕄) (thr d L) (SemLoc.dma (cV : DmaSem sig)) default 40960
        iprop((∃ c, ⌜HoldsV (F := F) (evOf m d) p b c⌝ ∗ (slotV p).view.loc (thr d L) ↦[(slotV p).view.set]{fullShare} c)
          ∗ ((evM).view.loc (thr d L) ↦[(blkV b hb).view.set]{qV} evOf m d))
    ∗ ((evM).view.loc (thr d L) ↦[Finset.univ \ (blkV b hb).view.set]{qV} evOf m d))

def stageIn (q : PosShare TreeShare) : Fin 2 → (b : Nat) → b < 250 → sProp 𝕄
  | 0, b, hb => iprop(inflightG m d L 0 ⟨0, by decide⟩ ⟨2, by decide⟩ (Transfers.shareTokN q 0) (Transfers.shareTokN q 2) b hb
      ∗ idleG m d L 1 ⟨1, by decide⟩ ⟨3, by decide⟩ (Transfers.shareTokN q 1) (Transfers.shareTokN q 3))
  | 1, b, hb => iprop(inflightG m d L 1 ⟨1, by decide⟩ ⟨3, by decide⟩ (Transfers.shareTokN q 1) (Transfers.shareTokN q 3) b hb
      ∗ idleG m d L 0 ⟨0, by decide⟩ ⟨2, by decide⟩ (Transfers.shareTokN q 0) (Transfers.shareTokN q 2))

def stageOut (q : PosShare TreeShare) : Fin 2 → sProp 𝕄
  | 0 => iprop(idleG m d L 0 ⟨0, by decide⟩ ⟨2, by decide⟩ (Transfers.shareTokN q 0) (Transfers.shareTokN q 2)
      ∗ idleG m d L 1 ⟨1, by decide⟩ ⟨3, by decide⟩ (Transfers.shareTokN q 1) (Transfers.shareTokN q 3))
  | 1 => iprop(idleG m d L 1 ⟨1, by decide⟩ ⟨3, by decide⟩ (Transfers.shareTokN q 1) (Transfers.shareTokN q 3)
      ∗ idleG m d L 0 ⟨0, by decide⟩ ⟨2, by decide⟩ (Transfers.shareTokN q 0) (Transfers.shareTokN q 2))

def pinv (O : CellTallies nD τ sig (HIx 1)) (W : Waits sig (HIx 1)) (t : Nat)
    (acc : BitVec 32 × BitVec 32 × BitVec 32 × BitVec 32 × BitVec 32) : sProp 𝕄 :=
  iprop(⌜acc = car (nBL L) t⌝
    ∗ Transfers.MayWaits (thr d L) (none : HIx 1) O
    ∗ ((accM).view.loc (thr d L) ↦{fullShare}
        (Cert.Spec.blockFold (m (eiLoc d)) (evOf m d) (fbL L) t Cert.Spec.zeroAcc : Vec F Cert.Spec.SAcc .f32))
    ∗ (∃ W', ⌜∀ p ∈ W', p ∈ W ∨ p.2 = none⌝ ∗ owes (thr d L) O W')
    ∗ (if ht : t < nBL L then stageIn m d L (tok (wL L)) (par t) (fbL L + t) (blk_lt L ht)
       else stageOut m d L (tok (wL L)) (par t)))

end Inv

theorem slotI_canon (off : Fin 3 → Nat) (p : Fin 2) (hoff : off = ![p.val, 0, 0]) :
    ((bufIM).slice (Rect.unit (s := S2x1x1280) off S1x1x1280.size (hoff ▸ slot_inb p)) (fun _ => rfl)).squeeze S1x1280 squeezes_S1x1x1280_S1x1280 = slotI p := by
  subst hoff; rfl
theorem slotV_canon (off : Fin 3 → Nat) (p : Fin 2) (hoff : off = ![p.val, 0, 0]) :
    ((bufVM).slice (Rect.unit (s := S2x1x1280) off S1x1x1280.size (hoff ▸ slot_inb p)) (fun _ => rfl)).squeeze S1x1280 squeezes_S1x1x1280_S1x1280 = slotV p := by
  subst hoff; rfl
theorem blkI_canon (off : Fin 2 → Nat) (b : Nat) (hb : b < 250) (hoff : off = ![1, 1280 * b]) :
    (eiM).slice (Rect.unit (s := S2x320000) off S1x1280.size (hoff ▸ blkI_inb b hb)) (fun _ => rfl) = blkI b hb := by
  subst hoff; rfl
theorem blkV_canon (off : Fin 2 → Nat) (b : Nat) (hb : b < 250) (hoff : off = ![0, 1280 * b]) :
    (evM).slice (Rect.unit (s := S1x320000) off S1x1280.size (hoff ▸ blkV_inb b hb)) (fun _ => rfl) = blkV b hb := by
  subst hoff; rfl
theorem sem_inb (c : Nat) (hc : c < 2) : ∀ a, (![c] : Fin 1 → Nat) a + S1.size a ≤ S2.size a := by
  intro a; obtain rfl : a = 0 := Subsingleton.elim _ _; show c + 1 ≤ 2; omega
theorem semI_canon0 (off : Fin 1 → Nat) (hoff : off = ![0]) :
    ((SemArray.slice cc0_scoped1 (Rect.unit (s := S2) off S1.size (hoff ▸ sem_inb 0 (by decide)))).squeeze S_ squeezes_S1_S_).sem = (⟨0, by decide⟩ : Fin 13) := by
  subst hoff; decide +kernel
theorem semI_canon1 (off : Fin 1 → Nat) (hoff : off = ![1]) :
    ((SemArray.slice cc0_scoped1 (Rect.unit (s := S2) off S1.size (hoff ▸ sem_inb 1 (by decide)))).squeeze S_ squeezes_S1_S_).sem = (⟨1, by decide⟩ : Fin 13) := by
  subst hoff; decide +kernel
theorem semV_canon0 (off : Fin 1 → Nat) (hoff : off = ![0]) :
    ((SemArray.slice cc0_scoped3 (Rect.unit (s := S2) off S1.size (hoff ▸ sem_inb 0 (by decide)))).squeeze S_ squeezes_S1_S_).sem = (⟨2, by decide⟩ : Fin 13) := by
  subst hoff; decide +kernel
theorem semV_canon1 (off : Fin 1 → Nat) (hoff : off = ![1]) :
    ((SemArray.slice cc0_scoped3 (Rect.unit (s := S2) off S1.size (hoff ▸ sem_inb 1 (by decide)))).squeeze S_ squeezes_S1_S_).sem = (⟨3, by decide⟩ : Fin 13) := by
  subst hoff; decide +kernel

def iinv (L : grid0.Coords) (p : Fin 2) (b : Nat) (A : Vec F Cert.Spec.SAcc .f32)
    (cI : Buf (Elt F) ((slotI p).view.loc (thr d L))) (cV : Buf (Elt F) ((slotV p).view.loc (thr d L))) (j : Nat) (_ : Unit) : sProp 𝕄 :=
  iprop(((accM).view.loc (thr d L) ↦{fullShare} (Cert.Spec.chunkFold (m (eiLoc d)) (evOf m d) b j A : Vec F Cert.Spec.SAcc .f32))
    ∗ ((slotI p).view.loc (thr d L) ↦[(slotI p).view.set]{fullShare} cI)
    ∗ ((slotV p).view.loc (thr d L) ↦[(slotV p).view.set]{fullShare} cV))

theorem chk4_of_holds (hr : ∀ (d : Dev nD) i, (m (eiLoc d) i).toNat < 10000) (L : grid0.Coords) (p : Fin 2) (b : Nat)
    (cI : (slotI p).view.ty.Contents (Elt F)) (h : HoldsI (F := F) (m (eiLoc d)) p b cI)
    (j : Fin k0_t3_loop.trips) (inb : ∀ a, (k0_off19 j) a + S1x16.size a ≤ S1x1280.size a) :
    k0_chk4 L (shapeCast S16 ((slotI p).view.readAt (Elt F) (Rect.unit (s := S1x1280) (k0_off19 j) S1x16.size inb).toLoadRect cI) shapeCasts_S1x16_S16) := by
  rw [idx_of_holds (F := F) (m (eiLoc d)) p b cI h j inb]
  intro _ a x
  obtain rfl : a = 0 := Subsingleton.elim _ _
  show (Cert.Spec.dstChunk (m (eiLoc d)) b j.val x).toNat < 10000
  unfold Cert.Spec.dstChunk
  split
  · exact hr d _
  · decide

omit [FloatOps F] in
theorem pts_acc_access (L : grid0.Coords) (f : Buf (Elt F) ((accM).view.loc (thr d L))) :
    ((((accM).access (.whole S10000)).loc (thr d L) ↦[((accM).access (.whole S10000)).set]{fullShare} f : sProp 𝕄))
      = ((accM).view.loc (thr d L) ↦{fullShare} f) := by
  rw [show ((accM).access (.whole S10000)).set = Finset.univ from Memref.set_access_whole (cc0_scratch0 : Ref sig .scVector)]

theorem scat_step (acc : Vec F Cert.Spec.SAcc .f32) (idx : IVec Cert.Spec.SLanes 32) (v : Vec F Cert.Spec.SLanes .f32)
    (h : ∀ (a : Fin Cert.Spec.SAcc.rank) (x : Cert.Spec.SLanes.Idx), ((![idx] : Fin 1 → IVec Cert.Spec.SLanes 32) a x).toNat < Cert.Spec.SAcc.size a) :
    storeIdx acc (![idx] : Fin Cert.Spec.SAcc.rank → IVec Cert.Spec.SLanes 32) v (fun _ => 1#1) true h = Cert.Spec.scat acc idx v := by
  unfold Cert.Spec.scat; rw [dif_pos h]

theorem scat_step' (acc : Vec F Cert.Spec.SAcc .f32) (idx idx' : IVec Cert.Spec.SLanes 32) (v v' : Vec F Cert.Spec.SLanes .f32)
    (hi : idx' = idx) (hv : v' = v)
    (h : ∀ (a : Fin Cert.Spec.SAcc.rank) (x : Cert.Spec.SLanes.Idx), ((![idx'] : Fin 1 → IVec Cert.Spec.SLanes 32) a x).toNat < Cert.Spec.SAcc.size a) :
    storeIdx acc (![idx'] : Fin Cert.Spec.SAcc.rank → IVec Cert.Spec.SLanes 32) v' (fun _ => 1#1) true h = Cert.Spec.scat acc idx v := by
  subst hi hv; exact scat_step acc _ _ h

theorem acc_step (L : grid0.Coords) (f : Vec F Cert.Spec.SAcc .f32) (idx' : IVec Cert.Spec.SLanes 32) (v' : Vec F Cert.Spec.SLanes .f32)
    (idx : IVec Cert.Spec.SLanes 32) (v : Vec F Cert.Spec.SLanes .f32) (hi : idx' = idx) (hv : v' = v)
    (h : ∀ (a : Fin Cert.Spec.SAcc.rank) (x : Cert.Spec.SLanes.Idx), ((![idx'] : Fin 1 → IVec Cert.Spec.SLanes 32) a x).toNat < Cert.Spec.SAcc.size a) :
    ((((accM).access (.whole S10000)).loc (thr d L) ↦[((accM).access (.whole S10000)).set]{fullShare}
        (((accM).access (.whole S10000)).write (Elt F) f
          (storeIdx (((accM).access (.whole S10000)).read (Elt F) f) (![idx'] : Fin Cert.Spec.SAcc.rank → IVec Cert.Spec.SLanes 32) v' (fun _ => 1#1) true h) Finset.univ) : sProp 𝕄))
      = ((accM).view.loc (thr d L) ↦{fullShare} (Cert.Spec.scat f idx v : Vec F Cert.Spec.SAcc .f32)) := by
  have hwr : ∀ (g w : Vec F Cert.Spec.SAcc .f32), ((accM).access (.whole S10000)).write (Elt F) g w Finset.univ = w :=
    fun g w => Memref.write_access_whole_univ (Elt F) (cc0_scratch0 : Ref sig .scVector) g w
  have hrd : ∀ (g : Vec F Cert.Spec.SAcc .f32), ((accM).access (.whole S10000)).read (Elt F) g = g :=
    fun g => Memref.read_access_whole (Elt F) (cc0_scratch0 : Ref sig .scVector) g
  rw [pts_acc_access, hwr, hrd, scat_step' f idx idx' v v' hi hv]

omit [FloatOps F] in

theorem acc_fold_done (L : grid0.Coords) (g : Nat → Buf (Elt F) ((accM).view.loc (thr d L))) :
    ((accM).view.loc (thr d L) ↦{fullShare} g (Scf.trips k0_t3_loop.lb k0_t3_loop.ub k0_t3_loop.st) : sProp 𝕄) ⊢ (accM).view.loc (thr d L) ↦{fullShare} g 80 := by
  rw [show Scf.trips k0_t3_loop.lb k0_t3_loop.ub k0_t3_loop.st = 80 from t3_trips]

theorem flightI_conv (L : grid0.Coords) (p : Fin 2) (c : Fin 13) (q : PosShare TreeShare) (b : Nat) (hb : b < 250)
    (f : (slotI p).view.ty.Contents (Elt F)) (w : S1x1280.Idx → Elt F .i32)
    (hh : HoldsI (F := F) (m (eiLoc d)) p b ((slotI p).view.writes (Elt F) f [⟨Rect.whole S1x1280, w⟩])) :
    (Transfers.Flight (countersEmb : UEmb Counters 𝕄) (thr d L) (SemLoc.dma (c : DmaSem sig)) default 40960
        iprop(((slotI p).view.loc (thr d L) ↦[(slotI p).view.set]{fullShare}
            (slotI p).view.writes (Elt F) f [⟨Rect.whole S1x1280, w⟩])
          ∗ ((eiM).view.loc (thr d L) ↦[(blkI b hb).view.set]{q} m (eiLoc d))) : sProp 𝕄)
      ⊢ Transfers.Flight (countersEmb : UEmb Counters 𝕄) (thr d L) (SemLoc.dma (c : DmaSem sig)) default 40960
        iprop((∃ c', ⌜HoldsI (F := F) (m (eiLoc d)) p b c'⌝ ∗ (slotI p).view.loc (thr d L) ↦[(slotI p).view.set]{fullShare} c')
          ∗ ((eiM).view.loc (thr d L) ↦[(blkI b hb).view.set]{q} m (eiLoc d))) := by
  refine Transfers.Flight_mono _ _ ?_
  iintro ⟨H1, H2⟩
  isplitl [H1]
  · iexists _; isplitr
    · ipureintro; exact hh
    · iexact H1
  · iexact H2
theorem flightV_conv (L : grid0.Coords) (p : Fin 2) (c : Fin 13) (q : PosShare TreeShare) (b : Nat) (hb : b < 250)
    (f : (slotV p).view.ty.Contents (Elt F)) (w : S1x1280.Idx → Elt F .f32)
    (hh : HoldsV (F := F) (evOf m d) p b ((slotV p).view.writes (Elt F) f [⟨Rect.whole S1x1280, w⟩])) :
    (Transfers.Flight (countersEmb : UEmb Counters 𝕄) (thr d L) (SemLoc.dma (c : DmaSem sig)) default 40960
        iprop(((slotV p).view.loc (thr d L) ↦[(slotV p).view.set]{fullShare}
            (slotV p).view.writes (Elt F) f [⟨Rect.whole S1x1280, w⟩])
          ∗ ((evM).view.loc (thr d L) ↦[(blkV b hb).view.set]{q} evOf m d)) : sProp 𝕄)
      ⊢ Transfers.Flight (countersEmb : UEmb Counters 𝕄) (thr d L) (SemLoc.dma (c : DmaSem sig)) default 40960
        iprop((∃ c', ⌜HoldsV (F := F) (evOf m d) p b c'⌝ ∗ (slotV p).view.loc (thr d L) ↦[(slotV p).view.set]{fullShare} c')
          ∗ ((evM).view.loc (thr d L) ↦[(blkV b hb).view.set]{q} evOf m d)) := by
  refine Transfers.Flight_mono _ _ ?_
  iintro ⟨H1, H2⟩
  isplitl [H1]
  · iexists _; isplitr
    · ipureintro; exact hh
    · iexact H1
  · iexact H2

omit [FloatOps F] in

theorem waits_ok {W W' : Waits sig (HIx 1)} (hW' : ∀ p ∈ W', p ∈ W ∨ p.2 = none) (a b : SemLoc sig) :
    ∀ p ∈ insert (a, (default : HIx 1)) (insert (b, (default : HIx 1)) W'), p ∈ W ∨ p.2 = none := by
  intro p hp
  rcases Finset.mem_insert.mp hp with rfl | hp
  · exact .inr rfl
  rcases Finset.mem_insert.mp hp with rfl | hp
  · exact .inr rfl
  exact hW' p hp

def v4L (L : grid0.Coords) : BitVec 32 :=
  Scalar.addi (Scalar.addi 0#32 (Scalar.muli (BitVec.ofNat 32 (L 1).val) 1#32)) (Scalar.muli (BitVec.ofNat 32 (L 0).val) 16#32)
def v6L (L : grid0.Coords) : BitVec 32 := Scalar.select (Scalar.cmpi .slt (v4L L) 26#32) 8#32 7#32
def v11L (L : grid0.Coords) : BitVec 32 :=
  Scalar.select (Scalar.cmpi .slt (v4L L) 26#32) (Scalar.muli (v4L L) (v6L L)) (Scalar.addi (Scalar.muli (v4L L) 7#32) 26#32)
def v12L (L : grid0.Coords) : BitVec 32 := Scalar.muli 1#32 (v6L L)
def v23L (L : grid0.Coords) : BitVec 32 := Scalar.addi 0#32 (v11L L)

set_option maxRecDepth 65536 in
set_option maxHeartbeats 4000000 in

theorem chunk_step (hr : ∀ (d : Dev nD) i, (m (eiLoc d) i).toNat < 10000) (L : grid0.Coords) (k0_h1 : k0_cond1 L = 1#1)
    (k : Fin (k0_t2_loop L).trips) (a7 a8 a9 a10 a11 : BitVec 32)
    (hw3 : k0_chk3 L a10) (hw2 : k0_chk2 L a8) (hw1 : k0_chk1 L k a7 a8 a9 a10 a11)
    (arg6 : BitVec 32) (v99 v101 : BitVec 1) (v102 v108 v113 : BitVec 32) (v130 : BitVec 1) (v131 c1 : BitVec 32)
    (p : Fin 2) (h18 : k0_off18 a8 = ![p.val, 0, 0]) (h20 : k0_off20 a10 = ![p.val, 0, 0])
    (b : Nat) (A : Vec F Cert.Spec.SAcc .f32)
    (cI : Buf (Elt F) ((slotI p).view.loc (thr d L))) (cV : Buf (Elt F) ((slotV p).view.loc (thr d L)))
    (hcI : HoldsI (F := F) (m (eiLoc d)) p b cI) (hcV : HoldsV (F := F) (evOf m d) p b cV)
    (j : Fin k0_t3_loop.trips) (u : Unit) :
    iinv (F := F) m d L p b A cI cV j.val u
      ⊢ wp frame (wpE (defs₀ (F := F)) 𝒱₀ (thr d L) none) Set.univ
          (k0_t3_body L (Memref.whole main_arg3_scv) (Memref.isWhole_whole _) (Memref.whole main_v0_scv) (Memref.isWhole_whole _)
            (Memref.whole main_v1_scv) (Memref.isWhole_whole _) (Memref.whole cc0_scratch0) (Memref.isWhole_whole _)
            (Memref.whole cc0_scoped0) (Memref.isWhole_whole _) cc0_scoped1 (Memref.whole cc0_scoped2) (Memref.isWhole_whole _) cc0_scoped3 cc0_scoped4
            k0_h1 k a7 a8 a9 a10 a11 hw3 hw2 hw1 arg6 v99 v101 v102 v108 v113 v130 v131 c1 j u)
          (iinv (F := F) m d L p b A cI cV (j.val + 1)) := by
  have hcanonA18 := slotI_canon (k0_off18 a8) p h18
  have hcanonB20 := slotV_canon (k0_off20 a10) p h20
  unfold iinv
  iintro ⟨Hacc, HslI, HslV⟩
  unfold k0_t3_body
  sl_exec
  have hchk : k0_chk4 L (chunk_step.sl.v198_r0 d L k0_h1 p cI j) :=
    chk4_of_holds (F := F) m d hr L p b cI hcI j (k0_off19_inb L j k0_h1)
  sl_exec
  ihave Hacc' := (Entails.of_eq (pts_acc_access (F := F) d L _).symm) $$ Hacc
  iapply (SparseCore.wp_vectorStoreIdx 𝒱₀ (thr d L) none Set.univ (base := (accM))) $$ Hacc'
  iintro Hacc
  ihave Hacc2 := (Entails.of_eq (acc_step (F := F) d L _ (chunk_step.sl.v198_r0 d L k0_h1 p cI j) _
      (Cert.Spec.dstChunk (m (eiLoc d)) b j.val) (Cert.Spec.wtChunk (evOf m d) b j.val)
      (idx_of_holds (F := F) (m (eiLoc d)) p b cI hcI j (k0_off19_inb L j k0_h1))
      (val_of_holds (F := F) (evOf m d) p b cV hcV j (k0_off19_inb L j k0_h1)) _)) $$ Hacc
  sl_step
  isplitl [Hacc2]; · iexact Hacc2
  isplitl [HslI]; · iexact HslI
  iexact HslV

end Cert.KI

end
-- ==== Proof.KI.TileTrip.lean ====
/-
  A trip of the worker's loop over its blocks of edges that is not the last.  A worker has at most eight blocks, so by
  parity such a trip's number is 0, 2, 4 or 6, or else 1, 3 or 5; the trip is the same at each.
-/
import proofs.«207122_g38740605010510_cont_8to1_b_1101_12_alg».proof.Proof.KI.Common
import proofs.«207122_g38740605010510_cont_8to1_b_1101_12_alg».proof.Proof.KI.TileArith
import proofs.«207122_g38740605010510_cont_8to1_b_1101_12_alg».proof.Proof.KI.TileData
import proofs.«207122_g38740605010510_cont_8to1_b_1101_12_alg».proof.Proof.KI.TileRow
import proofs.«207122_g38740605010510_cont_8to1_b_1101_12_alg».proof.Proof.KI.TileInv
import Idealize.ShloMosaic.Lib.WritesUnit
import Mathlib.Tactic.IntervalCases

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD)

-- The chunk loop's invariant at block n of the worker's run, on top of the fold of the first n blocks.
abbrev tinv (L : grid0.Coords) (p : Fin 2) {n : Nat} (_ : fbL L + n < 250) :=
  iinv (F := F) m d L p (fbL L + n) (Cert.Spec.blockFold (m (eiLoc d)) (evOf m d) (fbL L) n Cert.Spec.zeroAcc)

theorem acc_done (L : grid0.Coords) (b : Nat) (A : Vec F Cert.Spec.SAcc .f32) :
    ((accM).view.loc (thr d L) ↦{fullShare} (Cert.Spec.chunkFold (m (eiLoc d)) (evOf m d) b
        (Scf.trips k0_t3_loop.lb k0_t3_loop.ub k0_t3_loop.st) A : Vec F Cert.Spec.SAcc .f32) : sProp 𝕄)
      ⊢ (accM).view.loc (thr d L) ↦{fullShare} (Cert.Spec.chunkFold (m (eiLoc d)) (evOf m d) b 80 A : Vec F Cert.Spec.SAcc .f32) :=
  acc_fold_done (F := F) d L fun n => Cert.Spec.chunkFold (m (eiLoc d)) (evOf m d) b n A

set_option maxRecDepth 65536 in
set_option maxHeartbeats 4000000 in
-- The facts hold at any trip number; parity and "not the last trip" then leave four numbers (three for odd trips).
theorem trip_0x (hr : ∀ (d : Dev nD) i, (m (eiLoc d) i).toNat < 10000) (L : grid0.Coords)
    (O : CellTallies nD τ sig (HIx 1)) (W : Waits sig (HIx 1)) (k0_h1 : k0_cond1 L = 1#1)
    (k : Fin (k0_t2_loop L).trips) (hp : par k.val = 0) (hp' : par (k.val + 1) = 1) (hnext : k.val + 1 < nBL L)
    (acc : BitVec 32 × BitVec 32 × BitVec 32 × BitVec 32 × BitVec 32) :
    pinv (F := F) m d L O W k.val acc
      ⊢ wp frame (wpE (defs₀ (F := F)) 𝒱₀ (thr d L) none) Set.univ
          (k0_t2_body L (Memref.whole main_arg3_scv) (Memref.isWhole_whole _) (Memref.whole main_v0_scv) (Memref.isWhole_whole _)
            (Memref.whole main_v1_scv) (Memref.isWhole_whole _) (Memref.whole cc0_scratch0) (Memref.isWhole_whole _)
            (Memref.whole cc0_scoped0) (Memref.isWhole_whole _) cc0_scoped1 (Memref.whole cc0_scoped2) (Memref.isWhole_whole _) cc0_scoped3 cc0_scoped4
            (v6L L) (v11L L) (v12L L) k0_h1 (v23L L) 1#32 k acc)
          (pinv (F := F) m d L O W (k.val + 1)) := by
  obtain ⟨kv, hkt⟩ := k
  dsimp only at hp hp' hnext ⊢
  have hkn : kv < nBL L := lt_of_lt_of_eq hkt (t2_trips_wN L)
  have h8 : (k0_t2_loop L).trips ≤ 8 := (k0_t2_abs L).2.1
  have hk8 : kv < 8 := lt_of_lt_of_le hkt h8
  have hcar : car (nBL L) kv = (BitVec.ofNat 32 (kv + 1), BitVec.ofNat 32 kv, BitVec.ofNat 32 (kv + 1), BitVec.ofNat 32 kv, BitVec.ofNat 32 kv) := by
    unfold car; rw [Nat.min_eq_left (by omega), if_pos hkn]
  have hw1 : k0_chk1 L (⟨kv, hkt⟩ : Fin (k0_t2_loop L).trips) (BitVec.ofNat 32 (kv + 1)) (BitVec.ofNat 32 kv) (BitVec.ofNat 32 (kv + 1)) (BitVec.ofNat 32 kv) (BitVec.ofNat 32 kv) := chk1_at L (⟨kv, hkt⟩ : Fin (k0_t2_loop L).trips)
  have hw2 := chk2_all L (BitVec.ofNat 32 kv)
  have hw3 := chk3_all L (BitVec.ofNat 32 kv)
  have hc4 : k0_cond4 L (⟨kv, hkt⟩ : Fin (k0_t2_loop L).trips) (BitVec.ofNat 32 kv) = 1#1 := cond4_all L (⟨kv, hkt⟩ : Fin (k0_t2_loop L).trips)
  have hc5 : k0_cond5 L (⟨kv, hkt⟩ : Fin (k0_t2_loop L).trips) (BitVec.ofNat 32 kv) = 1#1 := cond5_all L (⟨kv, hkt⟩ : Fin (k0_t2_loop L).trips)
  have hbk : fbL L + kv < 250 := blk_lt L hkn
  have hnext' : kv + 1 < (k0_t2_loop L).trips := lt_of_lt_of_eq hnext (t2_trips_wN L).symm
  have hc2 : k0_cond2 L (⟨kv, hkt⟩ : Fin (k0_t2_loop L).trips) (BitVec.ofNat 32 kv) = 1#1 := (cond2_iff L (⟨kv, hkt⟩ : Fin (k0_t2_loop L).trips)).mpr hnext'
  have hc3 : k0_cond3 L (⟨kv, hkt⟩ : Fin (k0_t2_loop L).trips) (BitVec.ofNat 32 kv) = 1#1 := (cond3_iff L (⟨kv, hkt⟩ : Fin (k0_t2_loop L).trips)).mpr hnext'
  have hbk1 : fbL L + (kv + 1) < 250 := blk_lt L hnext
  have hcanonA12 := slotI_canon (k0_off12 (BitVec.ofNat 32 kv)) 0 (by rw [off12_eq, toNat_par _ (by omega), hp])
  have hcanonA18 := slotI_canon (k0_off18 (BitVec.ofNat 32 kv)) 0 (by rw [off18_eq, toNat_par _ (by omega), hp])
  have hcanonB15 := slotV_canon (k0_off15 (BitVec.ofNat 32 kv)) 0 (by rw [off15_eq, toNat_par _ (by omega), hp])
  have hcanonB20 := slotV_canon (k0_off20 (BitVec.ofNat 32 kv)) 0 (by rw [off20_eq, toNat_par _ (by omega), hp])
  have hcanonC14 := semI_canon0 (k0_off14 (BitVec.ofNat 32 kv)) (by rw [off14_eq, toNat_par _ (by omega), hp]; rfl)
  have hcanonC17 := semV_canon0 (k0_off17 (BitVec.ofNat 32 kv)) (by rw [off17_eq, toNat_par _ (by omega), hp]; rfl)
  have hcanonD13 := blkI_canon (k0_off13 L (BitVec.ofNat 32 kv)) (fbL L + kv) hbk (off13_eq L (⟨kv, hkt⟩ : Fin (k0_t2_loop L).trips))
  have hcanonD16 := blkV_canon (k0_off16 L (BitVec.ofNat 32 kv)) (fbL L + kv) hbk (off16_eq L (⟨kv, hkt⟩ : Fin (k0_t2_loop L).trips))
  have hcanonA6 := slotI_canon (k0_off6 (BitVec.ofNat 32 (kv + 1))) 1 (by rw [off6_eq, toNat_par _ (by omega), hp'])
  have hcanonB9 := slotV_canon (k0_off9 (BitVec.ofNat 32 (kv + 1))) 1 (by rw [off9_eq, toNat_par _ (by omega), hp'])
  have hcanonC8 := semI_canon1 (k0_off8 (BitVec.ofNat 32 (kv + 1))) (by rw [off8_eq, toNat_par _ (by omega), hp']; rfl)
  have hcanonC11 := semV_canon1 (k0_off11 (BitVec.ofNat 32 (kv + 1))) (by rw [off11_eq, toNat_par _ (by omega), hp']; rfl)
  have hcanonD7 := blkI_canon (k0_off7 L (BitVec.ofNat 32 kv)) (fbL L + (kv + 1)) hbk1 (by have h := off7_eq L (⟨kv, hkt⟩ : Fin (k0_t2_loop L).trips) hnext'; rw [Nat.add_assoc] at h; exact h)
  have hcanonD10 := blkV_canon (k0_off10 L (BitVec.ofNat 32 kv)) (fbL L + (kv + 1)) hbk1 (by have h := off10_eq L (⟨kv, hkt⟩ : Fin (k0_t2_loop L).trips) hnext'; rw [Nat.add_assoc] at h; exact h)
  have htr : (k0_t2_loop L).trips = nBL L := t2_trips_wN L
  unfold pinv
  rw [dif_pos hkn, dif_pos hnext, hp, hp', hcar, stageIn, stageIn]
  unfold inflightG idleG
  iintro ⟨%hacc, #Hmw, Hacc, ⟨%W', %hW', HO⟩, ⟨HfI, HrI, HfV, HrV⟩, ⟨%gi, HIq⟩, ⟨%gv, HVq⟩, Hsq, Htq, HeiTq, HevTq⟩
  subst hacc
  unfold k0_t2_body
  interval_cases kv <;> first
  | exact absurd hp (by decide)
  | (exfalso; omega)
  | (sl_exec_parts
     icases HfI_dst with ⟨%cI, %hcI, HslI⟩
     icases HfV_dst with ⟨%cV, %hcV, HslV⟩
     sl_for (tinv (F := F) m d L 0 hbk cI cV) $$ [Hacc HslI HslV]
     case region =>
       intro j u
       exact chunk_step (F := F) m d hr L k0_h1 ⟨_, hkt⟩ _ _ _ _ _ _ _ _ _ _ _ _ _ _ _ _ _ 0
         (by rw [off18_eq, toNat_par _ (by omega), hp]) (by rw [off20_eq, toNat_par _ (by omega), hp])
         _ _ cI cV hcI hcV j u
     · unfold tinv iinv
       isplitl [Hacc]; · iexact Hacc
       isplitl [HslI]; · iexact HslI
       iexact HslV
     iintro %_ HI
     unfold tinv iinv
     icases HI with ⟨Hacc, HslI, HslV⟩
     sl_exec
     sl_step
     sl_unfold_run_names
     isplitr
     · ipureintro; clear * - hkt; revert hkt; revert L; decide +kernel
     isplitr; · iexact Hmw
     isplitl [Hacc]
     · iapply (acc_done (F := F) m d L _ _) $$ Hacc
     isplitl [HO]
     · iexists _; isplitr
       rotate_left
       · iexact HO
       · ipureintro; exact waits_ok hW' _ _
     isplitl [Hsq HeiTq Htq HevTq]
     · isplitl [Hsq]; · iapply (flightI_conv (F := F) m d L 1 _ _ _ hbk1 gi _ (holdsI_written (F := F) (m (eiLoc d)) 1 _ hbk1 gi)) $$ Hsq
       isplitl [HeiTq]; · iexact HeiTq
       isplitl [Htq]; · iapply (flightV_conv (F := F) m d L 1 _ _ _ hbk1 gv _ (holdsV_written (F := F) (evOf m d) 1 _ hbk1 gv)) $$ Htq
       iexact HevTq
     · isplitl [HslI]; · iexists _; iexact HslI
       isplitl [HslV]; · iexists _; iexact HslV
       isplitl [HfI]; · iexact HfI
       isplitl [HfV]; · iexact HfV
       isplitl [HrI]; · iexact HrI
       iexact HrV)

set_option maxRecDepth 65536 in
set_option maxHeartbeats 4000000 in
-- The facts hold at any trip number; parity and "not the last trip" then leave four numbers (three for odd trips).
theorem trip_1x (hr : ∀ (d : Dev nD) i, (m (eiLoc d) i).toNat < 10000) (L : grid0.Coords)
    (O : CellTallies nD τ sig (HIx 1)) (W : Waits sig (HIx 1)) (k0_h1 : k0_cond1 L = 1#1)
    (k : Fin (k0_t2_loop L).trips) (hp : par k.val = 1) (hp' : par (k.val + 1) = 0) (hnext : k.val + 1 < nBL L)
    (acc : BitVec 32 × BitVec 32 × BitVec 32 × BitVec 32 × BitVec 32) :
    pinv (F := F) m d L O W k.val acc
      ⊢ wp frame (wpE (defs₀ (F := F)) 𝒱₀ (thr d L) none) Set.univ
          (k0_t2_body L (Memref.whole main_arg3_scv) (Memref.isWhole_whole _) (Memref.whole main_v0_scv) (Memref.isWhole_whole _)
            (Memref.whole main_v1_scv) (Memref.isWhole_whole _) (Memref.whole cc0_scratch0) (Memref.isWhole_whole _)
            (Memref.whole cc0_scoped0) (Memref.isWhole_whole _) cc0_scoped1 (Memref.whole cc0_scoped2) (Memref.isWhole_whole _) cc0_scoped3 cc0_scoped4
            (v6L L) (v11L L) (v12L L) k0_h1 (v23L L) 1#32 k acc)
          (pinv (F := F) m d L O W (k.val + 1)) := by
  obtain ⟨kv, hkt⟩ := k
  dsimp only at hp hp' hnext ⊢
  have hkn : kv < nBL L := lt_of_lt_of_eq hkt (t2_trips_wN L)
  have h8 : (k0_t2_loop L).trips ≤ 8 := (k0_t2_abs L).2.1
  have hk8 : kv < 8 := lt_of_lt_of_le hkt h8
  have hcar : car (nBL L) kv = (BitVec.ofNat 32 (kv + 1), BitVec.ofNat 32 kv, BitVec.ofNat 32 (kv + 1), BitVec.ofNat 32 kv, BitVec.ofNat 32 kv) := by
    unfold car; rw [Nat.min_eq_left (by omega), if_pos hkn]
  have hw1 : k0_chk1 L (⟨kv, hkt⟩ : Fin (k0_t2_loop L).trips) (BitVec.ofNat 32 (kv + 1)) (BitVec.ofNat 32 kv) (BitVec.ofNat 32 (kv + 1)) (BitVec.ofNat 32 kv) (BitVec.ofNat 32 kv) := chk1_at L (⟨kv, hkt⟩ : Fin (k0_t2_loop L).trips)
  have hw2 := chk2_all L (BitVec.ofNat 32 kv)
  have hw3 := chk3_all L (BitVec.ofNat 32 kv)
  have hc4 : k0_cond4 L (⟨kv, hkt⟩ : Fin (k0_t2_loop L).trips) (BitVec.ofNat 32 kv) = 1#1 := cond4_all L (⟨kv, hkt⟩ : Fin (k0_t2_loop L).trips)
  have hc5 : k0_cond5 L (⟨kv, hkt⟩ : Fin (k0_t2_loop L).trips) (BitVec.ofNat 32 kv) = 1#1 := cond5_all L (⟨kv, hkt⟩ : Fin (k0_t2_loop L).trips)
  have hbk : fbL L + kv < 250 := blk_lt L hkn
  have hnext' : kv + 1 < (k0_t2_loop L).trips := lt_of_lt_of_eq hnext (t2_trips_wN L).symm
  have hc2 : k0_cond2 L (⟨kv, hkt⟩ : Fin (k0_t2_loop L).trips) (BitVec.ofNat 32 kv) = 1#1 := (cond2_iff L (⟨kv, hkt⟩ : Fin (k0_t2_loop L).trips)).mpr hnext'
  have hc3 : k0_cond3 L (⟨kv, hkt⟩ : Fin (k0_t2_loop L).trips) (BitVec.ofNat 32 kv) = 1#1 := (cond3_iff L (⟨kv, hkt⟩ : Fin (k0_t2_loop L).trips)).mpr hnext'
  have hbk1 : fbL L + (kv + 1) < 250 := blk_lt L hnext
  have hcanonA12 := slotI_canon (k0_off12 (BitVec.ofNat 32 kv)) 1 (by rw [off12_eq, toNat_par _ (by omega), hp])
  have hcanonA18 := slotI_canon (k0_off18 (BitVec.ofNat 32 kv)) 1 (by rw [off18_eq, toNat_par _ (by omega), hp])
  have hcanonB15 := slotV_canon (k0_off15 (BitVec.ofNat 32 kv)) 1 (by rw [off15_eq, toNat_par _ (by omega), hp])
  have hcanonB20 := slotV_canon (k0_off20 (BitVec.ofNat 32 kv)) 1 (by rw [off20_eq, toNat_par _ (by omega), hp])
  have hcanonC14 := semI_canon1 (k0_off14 (BitVec.ofNat 32 kv)) (by rw [off14_eq, toNat_par _ (by omega), hp]; rfl)
  have hcanonC17 := semV_canon1 (k0_off17 (BitVec.ofNat 32 kv)) (by rw [off17_eq, toNat_par _ (by omega), hp]; rfl)
  have hcanonD13 := blkI_canon (k0_off13 L (BitVec.ofNat 32 kv)) (fbL L + kv) hbk (off13_eq L (⟨kv, hkt⟩ : Fin (k0_t2_loop L).trips))
  have hcanonD16 := blkV_canon (k0_off16 L (BitVec.ofNat 32 kv)) (fbL L + kv) hbk (off16_eq L (⟨kv, hkt⟩ : Fin (k0_t2_loop L).trips))
  have hcanonA6 := slotI_canon (k0_off6 (BitVec.ofNat 32 (kv + 1))) 0 (by rw [off6_eq, toNat_par _ (by omega), hp'])
  have hcanonB9 := slotV_canon (k0_off9 (BitVec.ofNat 32 (kv + 1))) 0 (by rw [off9_eq, toNat_par _ (by omega), hp'])
  have hcanonC8 := semI_canon0 (k0_off8 (BitVec.ofNat 32 (kv + 1))) (by rw [off8_eq, toNat_par _ (by omega), hp']; rfl)
  have hcanonC11 := semV_canon0 (k0_off11 (BitVec.ofNat 32 (kv + 1))) (by rw [off11_eq, toNat_par _ (by omega), hp']; rfl)
  have hcanonD7 := blkI_canon (k0_off7 L (BitVec.ofNat 32 kv)) (fbL L + (kv + 1)) hbk1 (by have h := off7_eq L (⟨kv, hkt⟩ : Fin (k0_t2_loop L).trips) hnext'; rw [Nat.add_assoc] at h; exact h)
  have hcanonD10 := blkV_canon (k0_off10 L (BitVec.ofNat 32 kv)) (fbL L + (kv + 1)) hbk1 (by have h := off10_eq L (⟨kv, hkt⟩ : Fin (k0_t2_loop L).trips) hnext'; rw [Nat.add_assoc] at h; exact h)
  have htr : (k0_t2_loop L).trips = nBL L := t2_trips_wN L
  unfold pinv
  rw [dif_pos hkn, dif_pos hnext, hp, hp', hcar, stageIn, stageIn]
  unfold inflightG idleG
  iintro ⟨%hacc, #Hmw, Hacc, ⟨%W', %hW', HO⟩, ⟨HfI, HrI, HfV, HrV⟩, ⟨%gi, HIq⟩, ⟨%gv, HVq⟩, Hsq, Htq, HeiTq, HevTq⟩
  subst hacc
  unfold k0_t2_body
  interval_cases kv <;> first
  | exact absurd hp (by decide)
  | (exfalso; omega)
  | (sl_exec_parts
     icases HfI_dst with ⟨%cI, %hcI, HslI⟩
     icases HfV_dst with ⟨%cV, %hcV, HslV⟩
     sl_for (tinv (F := F) m d L 1 hbk cI cV) $$ [Hacc HslI HslV]
     case region =>
       intro j u
       exact chunk_step (F := F) m d hr L k0_h1 ⟨_, hkt⟩ _ _ _ _ _ _ _ _ _ _ _ _ _ _ _ _ _ 1
         (by rw [off18_eq, toNat_par _ (by omega), hp]) (by rw [off20_eq, toNat_par _ (by omega), hp])
         _ _ cI cV hcI hcV j u
     · unfold tinv iinv
       isplitl [Hacc]; · iexact Hacc
       isplitl [HslI]; · iexact HslI
       iexact HslV
     iintro %_ HI
     unfold tinv iinv
     icases HI with ⟨Hacc, HslI, HslV⟩
     sl_exec
     sl_step
     sl_unfold_run_names
     isplitr
     · ipureintro; clear * - hkt; revert hkt; revert L; decide +kernel
     isplitr; · iexact Hmw
     isplitl [Hacc]
     · iapply (acc_done (F := F) m d L _ _) $$ Hacc
     isplitl [HO]
     · iexists _; isplitr
       rotate_left
       · iexact HO
       · ipureintro; exact waits_ok hW' _ _
     isplitl [Hsq HeiTq Htq HevTq]
     · isplitl [Hsq]; · iapply (flightI_conv (F := F) m d L 0 _ _ _ hbk1 gi _ (holdsI_written (F := F) (m (eiLoc d)) 0 _ hbk1 gi)) $$ Hsq
       isplitl [HeiTq]; · iexact HeiTq
       isplitl [Htq]; · iapply (flightV_conv (F := F) m d L 0 _ _ _ hbk1 gv _ (holdsV_written (F := F) (evOf m d) 0 _ hbk1 gv)) $$ Htq
       iexact HevTq
     · isplitl [HslI]; · iexists _; iexact HslI
       isplitl [HslV]; · iexists _; iexact HslV
       isplitl [HfI]; · iexact HfI
       isplitl [HfV]; · iexact HfV
       isplitl [HrI]; · iexact HrI
       iexact HrV)

end Cert.KI

end
-- ==== Proof.KI.Tile.lean ====
/-
  A worker's task at a symbolic worker: zero the accumulator, fold the worker's blocks of edges into it, copy it to
  the worker's row.
-/
import proofs.«207122_g38740605010510_cont_8to1_b_1101_12_alg».proof.Proof.KI.Common
import proofs.«207122_g38740605010510_cont_8to1_b_1101_12_alg».proof.Proof.KI.TileArith
import proofs.«207122_g38740605010510_cont_8to1_b_1101_12_alg».proof.Proof.KI.TileData
import proofs.«207122_g38740605010510_cont_8to1_b_1101_12_alg».proof.Proof.KI.TileRow
import proofs.«207122_g38740605010510_cont_8to1_b_1101_12_alg».proof.Proof.KI.TileInv
import proofs.«207122_g38740605010510_cont_8to1_b_1101_12_alg».proof.Proof.KI.TileTrip
import Idealize.ShloMosaic.Lib.WritesUnit

noncomputable section

namespace Cert.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (d : Dev nD)

set_option maxRecDepth 65536 in
set_option maxHeartbeats 4000000 in

theorem trip_0n (hr : ∀ (d : Dev nD) i, (m (eiLoc d) i).toNat < 10000) (L : grid0.Coords)
    (O : CellTallies nD τ sig (HIx 1)) (W : Waits sig (HIx 1)) (k0_h1 : k0_cond1 L = 1#1)
    (k : Fin (k0_t2_loop L).trips) (hp : par k.val = 0) (hp' : par (k.val + 1) = 1) (hnext : ¬ k.val + 1 < nBL L)
    (acc : BitVec 32 × BitVec 32 × BitVec 32 × BitVec 32 × BitVec 32) :
    pinv (F := F) m d L O W k.val acc
      ⊢ wp frame (wpE (defs₀ (F := F)) 𝒱₀ (thr d L) none) Set.univ
          (k0_t2_body L (Memref.whole main_arg3_scv) (Memref.isWhole_whole _) (Memref.whole main_v0_scv) (Memref.isWhole_whole _)
            (Memref.whole main_v1_scv) (Memref.isWhole_whole _) (Memref.whole cc0_scratch0) (Memref.isWhole_whole _)
            (Memref.whole cc0_scoped0) (Memref.isWhole_whole _) cc0_scoped1 (Memref.whole cc0_scoped2) (Memref.isWhole_whole _) cc0_scoped3 cc0_scoped4
            (v6L L) (v11L L) (v12L L) k0_h1 (v23L L) 1#32 k acc)
          (pinv (F := F) m d L O W (k.val + 1)) := by
  have hkn : k.val < nBL L := lt_of_lt_of_eq k.isLt (t2_trips_wN L)
  have hk8 : k.val < 8 := lt_of_lt_of_le k.isLt (k0_t2_abs L).2.1
  have hcar : car (nBL L) k.val = (BitVec.ofNat 32 (k.val + 1), BitVec.ofNat 32 k.val, BitVec.ofNat 32 (k.val + 1), BitVec.ofNat 32 k.val, BitVec.ofNat 32 k.val) := by
    unfold car; rw [Nat.min_eq_left (by omega), if_pos hkn]
  have hw1 := chk1_at L k
  have hw2 := chk2_all L (BitVec.ofNat 32 k.val)
  have hw3 := chk3_all L (BitVec.ofNat 32 k.val)
  have hc4 := cond4_all L k
  have hc5 := cond5_all L k
  have hbk : fbL L + k.val < 250 := blk_lt L hkn
  have hc2 : ¬ (k0_cond2 L k (BitVec.ofNat 32 k.val) = 1#1) := fun h => hnext (lt_of_lt_of_eq ((cond2_iff L k).mp h) (t2_trips_wN L))
  have hc3 : ¬ (k0_cond3 L k (BitVec.ofNat 32 k.val) = 1#1) := fun h => hnext (lt_of_lt_of_eq ((cond3_iff L k).mp h) (t2_trips_wN L))
  have hcanonA12 := slotI_canon (k0_off12 (BitVec.ofNat 32 k.val)) 0 (by rw [off12_eq, toNat_par _ (by omega), hp])
  have hcanonA18 := slotI_canon (k0_off18 (BitVec.ofNat 32 k.val)) 0 (by rw [off18_eq, toNat_par _ (by omega), hp])
  have hcanonB15 := slotV_canon (k0_off15 (BitVec.ofNat 32 k.val)) 0 (by rw [off15_eq, toNat_par _ (by omega), hp])
  have hcanonB20 := slotV_canon (k0_off20 (BitVec.ofNat 32 k.val)) 0 (by rw [off20_eq, toNat_par _ (by omega), hp])
  have hcanonC14 := semI_canon0 (k0_off14 (BitVec.ofNat 32 k.val)) (by rw [off14_eq, toNat_par _ (by omega), hp]; rfl)
  have hcanonC17 := semV_canon0 (k0_off17 (BitVec.ofNat 32 k.val)) (by rw [off17_eq, toNat_par _ (by omega), hp]; rfl)
  have hcanonD13 := blkI_canon (k0_off13 L (BitVec.ofNat 32 k.val)) (fbL L + k.val) hbk (off13_eq L k)
  have hcanonD16 := blkV_canon (k0_off16 L (BitVec.ofNat 32 k.val)) (fbL L + k.val) hbk (off16_eq L k)
  unfold pinv
  rw [dif_pos hkn, dif_neg hnext, hp, hp', hcar, stageIn, stageOut]
  unfold inflightG idleG
  iintro ⟨%hacc, #Hmw, Hacc, ⟨%W', %hW', HO⟩, ⟨HfI, HrI, HfV, HrV⟩, ⟨%gi, HIq⟩, ⟨%gv, HVq⟩, Hsq, Htq, HeiTq, HevTq⟩
  subst hacc
  unfold k0_t2_body
  sl_exec
  icases HfI_dst with ⟨%cI, %hcI, HslI⟩
  icases HfV_dst with ⟨%cV, %hcV, HslV⟩
  sl_for (iinv (F := F) m d L 0 (fbL L + k.val) (Cert.Spec.blockFold (m (eiLoc d)) (evOf m d) (fbL L) k.val Cert.Spec.zeroAcc) cI cV) $$ [Hacc HslI HslV]
  case region =>
    intro j u
    exact chunk_step (F := F) m d hr L k0_h1 k _ _ _ _ _ _ _ _ _ _ _ _ _ _ _ _ _ 0
      (by rw [off18_eq, toNat_par _ (by omega), hp]) (by rw [off20_eq, toNat_par _ (by omega), hp])
      (fbL L + k.val) _ cI cV hcI hcV j u
  · unfold iinv
    isplitl [Hacc]; · iexact Hacc
    isplitl [HslI]; · iexact HslI
    iexact HslV
  iintro %_ HI
  unfold iinv
  icases HI with ⟨Hacc, HslI, HslV⟩
  sl_exec
  sl_step
  isplitr
  · ipureintro; clear * - k; revert k; revert L; decide +kernel
  isplitr; · iexact Hmw
  isplitl [Hacc]
  · iapply (acc_fold_done (F := F) d L (fun n => Cert.Spec.chunkFold (m (eiLoc d)) (evOf m d) (fbL L + k.val) n
      (Cert.Spec.blockFold (m (eiLoc d)) (evOf m d) (fbL L) k.val Cert.Spec.zeroAcc))) $$ Hacc
  isplitl [HO]
  · iexists _; isplitr
    rotate_left
    · iexact HO
    · ipureintro; exact waits_ok hW' _ _
  isplitl [HIq HVq Hsq Htq HeiTq HevTq]
  · isplitl [HIq]; · iexists _; iexact HIq
    isplitl [HVq]; · iexists _; iexact HVq
    isplitl [Hsq]; · iexact Hsq
    isplitl [Htq]; · iexact Htq
    isplitl [HeiTq]; · iexact HeiTq
    iexact HevTq
  · isplitl [HslI]; · iexists _; iexact HslI
    isplitl [HslV]; · iexists _; iexact HslV
    isplitl [HfI]; · iexact HfI
    isplitl [HfV]; · iexact HfV
    isplitl [HrI]; · iexact HrI
    iexact HrV

set_option maxRecDepth 65536 in
set_option maxHeartbeats 4000000 in

theorem trip_1n (hr : ∀ (d : Dev nD) i, (m (eiLoc d) i).toNat < 10000) (L : grid0.Coords)
    (O : CellTallies nD τ sig (HIx 1)) (W : Waits sig (HIx 1)) (k0_h1 : k0_cond1 L = 1#1)
    (k : Fin (k0_t2_loop L).trips) (hp : par k.val = 1) (hp' : par (k.val + 1) = 0) (hnext : ¬ k.val + 1 < nBL L)
    (acc : BitVec 32 × BitVec 32 × BitVec 32 × BitVec 32 × BitVec 32) :
    pinv (F := F) m d L O W k.val acc
      ⊢ wp frame (wpE (defs₀ (F := F)) 𝒱₀ (thr d L) none) Set.univ
          (k0_t2_body L (Memref.whole main_arg3_scv) (Memref.isWhole_whole _) (Memref.whole main_v0_scv) (Memref.isWhole_whole _)
            (Memref.whole main_v1_scv) (Memref.isWhole_whole _) (Memref.whole cc0_scratch0) (Memref.isWhole_whole _)
            (Memref.whole cc0_scoped0) (Memref.isWhole_whole _) cc0_scoped1 (Memref.whole cc0_scoped2) (Memref.isWhole_whole _) cc0_scoped3 cc0_scoped4
            (v6L L) (v11L L) (v12L L) k0_h1 (v23L L) 1#32 k acc)
          (pinv (F := F) m d L O W (k.val + 1)) := by
  have hkn : k.val < nBL L := lt_of_lt_of_eq k.isLt (t2_trips_wN L)
  have hk8 : k.val < 8 := lt_of_lt_of_le k.isLt (k0_t2_abs L).2.1
  have hcar : car (nBL L) k.val = (BitVec.ofNat 32 (k.val + 1), BitVec.ofNat 32 k.val, BitVec.ofNat 32 (k.val + 1), BitVec.ofNat 32 k.val, BitVec.ofNat 32 k.val) := by
    unfold car; rw [Nat.min_eq_left (by omega), if_pos hkn]
  have hw1 := chk1_at L k
  have hw2 := chk2_all L (BitVec.ofNat 32 k.val)
  have hw3 := chk3_all L (BitVec.ofNat 32 k.val)
  have hc4 := cond4_all L k
  have hc5 := cond5_all L k
  have hbk : fbL L + k.val < 250 := blk_lt L hkn
  have hc2 : ¬ (k0_cond2 L k (BitVec.ofNat 32 k.val) = 1#1) := fun h => hnext (lt_of_lt_of_eq ((cond2_iff L k).mp h) (t2_trips_wN L))
  have hc3 : ¬ (k0_cond3 L k (BitVec.ofNat 32 k.val) = 1#1) := fun h => hnext (lt_of_lt_of_eq ((cond3_iff L k).mp h) (t2_trips_wN L))
  have hcanonA12 := slotI_canon (k0_off12 (BitVec.ofNat 32 k.val)) 1 (by rw [off12_eq, toNat_par _ (by omega), hp])
  have hcanonA18 := slotI_canon (k0_off18 (BitVec.ofNat 32 k.val)) 1 (by rw [off18_eq, toNat_par _ (by omega), hp])
  have hcanonB15 := slotV_canon (k0_off15 (BitVec.ofNat 32 k.val)) 1 (by rw [off15_eq, toNat_par _ (by omega), hp])
  have hcanonB20 := slotV_canon (k0_off20 (BitVec.ofNat 32 k.val)) 1 (by rw [off20_eq, toNat_par _ (by omega), hp])
  have hcanonC14 := semI_canon1 (k0_off14 (BitVec.ofNat 32 k.val)) (by rw [off14_eq, toNat_par _ (by omega), hp]; rfl)
  have hcanonC17 := semV_canon1 (k0_off17 (BitVec.ofNat 32 k.val)) (by rw [off17_eq, toNat_par _ (by omega), hp]; rfl)
  have hcanonD13 := blkI_canon (k0_off13 L (BitVec.ofNat 32 k.val)) (fbL L + k.val) hbk (off13_eq L k)
  have hcanonD16 := blkV_canon (k0_off16 L (BitVec.ofNat 32 k.val)) (fbL L + k.val) hbk (off16_eq L k)
  unfold pinv
  rw [dif_pos hkn, dif_neg hnext, hp, hp', hcar, stageIn, stageOut]
  unfold inflightG idleG
  iintro ⟨%hacc, #Hmw, Hacc, ⟨%W', %hW', HO⟩, ⟨HfI, HrI, HfV, HrV⟩, ⟨%gi, HIq⟩, ⟨%gv, HVq⟩, Hsq, Htq, HeiTq, HevTq⟩
  subst hacc
  unfold k0_t2_body
  sl_exec
  icases HfI_dst with ⟨%cI, %hcI, HslI⟩
  icases HfV_dst with ⟨%cV, %hcV, HslV⟩
  sl_for (iinv (F := F) m d L 1 (fbL L + k.val) (Cert.Spec.blockFold (m (eiLoc d)) (evOf m d) (fbL L) k.val Cert.Spec.zeroAcc) cI cV) $$ [Hacc HslI HslV]
  case region =>
    intro j u
    exact chunk_step (F := F) m d hr L k0_h1 k _ _ _ _ _ _ _ _ _ _ _ _ _ _ _ _ _ 1
      (by rw [off18_eq, toNat_par _ (by omega), hp]) (by rw [off20_eq, toNat_par _ (by omega), hp])
      (fbL L + k.val) _ cI cV hcI hcV j u
  · unfold iinv
    isplitl [Hacc]; · iexact Hacc
    isplitl [HslI]; · iexact HslI
    iexact HslV
  iintro %_ HI
  unfold iinv
  icases HI with ⟨Hacc, HslI, HslV⟩
  sl_exec
  sl_step
  isplitr
  · ipureintro; clear * - k; revert k; revert L; decide +kernel
  isplitr; · iexact Hmw
  isplitl [Hacc]
  · iapply (acc_fold_done (F := F) d L (fun n => Cert.Spec.chunkFold (m (eiLoc d)) (evOf m d) (fbL L + k.val) n
      (Cert.Spec.blockFold (m (eiLoc d)) (evOf m d) (fbL L) k.val Cert.Spec.zeroAcc))) $$ Hacc
  isplitl [HO]
  · iexists _; isplitr
    rotate_left
    · iexact HO
    · ipureintro; exact waits_ok hW' _ _
  isplitl [HIq HVq Hsq Htq HeiTq HevTq]
  · isplitl [HIq]; · iexists _; iexact HIq
    isplitl [HVq]; · iexists _; iexact HVq
    isplitl [Hsq]; · iexact Hsq
    isplitl [Htq]; · iexact Htq
    isplitl [HeiTq]; · iexact HeiTq
    iexact HevTq
  · isplitl [HslI]; · iexists _; iexact HslI
    isplitl [HslV]; · iexists _; iexact HslV
    isplitl [HfI]; · iexact HfI
    isplitl [HfV]; · iexact HfV
    isplitl [HrI]; · iexact HrI
    iexact HrV

omit [FloatOps F] in

theorem ei_rejoin {ℓ : Loc nD τ sig} (f : Buf (Elt F) ℓ) (q : PosShare TreeShare) :
    iprop((ℓ ↦{Transfers.shareDrop q 2} f) ∗ (ℓ ↦{Transfers.shareTokN q 0} f) ∗ (ℓ ↦{Transfers.shareTokN q 1} f)) ⊢ (ℓ ↦{q} f : sProp 𝕄) := by
  iintro ⟨Hd, H0, H1⟩
  iapply (tok_split0 (F := F) f q).2
  isplitl [Hd H1]
  · iapply (tok_split (F := F) f q 1).2
    isplitl [Hd]; · iexact Hd
    iexact H1
  · iexact H0
omit [FloatOps F] in

theorem ev_rejoin {ℓ : Loc nD τ sig} (f : Buf (Elt F) ℓ) (q : PosShare TreeShare) :
    iprop((ℓ ↦{Transfers.shareDrop q 4} f) ∗ (ℓ ↦{Transfers.shareTokN q 0} f) ∗ (ℓ ↦{Transfers.shareTokN q 1} f)
      ∗ (ℓ ↦{Transfers.shareTokN q 2} f) ∗ (ℓ ↦{Transfers.shareTokN q 3} f)) ⊢ (ℓ ↦{q} f : sProp 𝕄) := by
  iintro ⟨Hd, H0, H1, H2, H3⟩
  iapply (tok_split0 (F := F) f q).2
  isplitl [Hd H1 H2 H3]
  · iapply (tok_split (F := F) f q 1).2
    isplitl [Hd H2 H3]
    · iapply (tok_split (F := F) f q 2).2
      isplitl [Hd H3]
      · iapply (tok_split (F := F) f q 3).2
        isplitl [Hd]; · iexact Hd
        iexact H3
      · iexact H2
    · iexact H1
  · iexact H0

theorem pinv_at_end (L : grid0.Coords) (O : CellTallies nD τ sig (HIx 1)) (W : Waits sig (HIx 1))
    (acc : BitVec 32 × BitVec 32 × BitVec 32 × BitVec 32 × BitVec 32) :
    pinv (F := F) m d L O W (Scf.trips (k0_t2_loop L).lb (k0_t2_loop L).ub (k0_t2_loop L).st) acc
      = iprop(⌜acc = car (nBL L) (nBL L)⌝
        ∗ Transfers.MayWaits (thr d L) (none : HIx 1) O
        ∗ ((accM).view.loc (thr d L) ↦{fullShare}
            (Cert.Spec.workerAcc (m (eiLoc d)) (evOf m d) (wN L) : Vec F Cert.Spec.SAcc .f32))
        ∗ (∃ W', ⌜∀ p ∈ W', p ∈ W ∨ p.2 = none⌝ ∗ owes (thr d L) O W')
        ∗ stageOut m d L (tok (wL L)) (par (nBL L))) := by
  unfold pinv
  rw [show Scf.trips (k0_t2_loop L).lb (k0_t2_loop L).ub (k0_t2_loop L).st = nBL L from t2_trips_wN L, dif_neg (lt_irrefl _)]
  rfl

theorem nBL_pos (L : grid0.Coords) : 0 < nBL L := by
  show 0 < Cert.Spec.nBlocks (wN L)
  unfold Cert.Spec.nBlocks; split <;> omega

theorem pinv_zero (L : grid0.Coords) (O : CellTallies nD τ sig (HIx 1)) (W : Waits sig (HIx 1))
    (acc : BitVec 32 × BitVec 32 × BitVec 32 × BitVec 32 × BitVec 32) :
    pinv (F := F) m d L O W 0 acc
      = iprop(⌜acc = car (nBL L) 0⌝
        ∗ Transfers.MayWaits (thr d L) (none : HIx 1) O
        ∗ ((accM).view.loc (thr d L) ↦{fullShare} (Cert.Spec.zeroAcc : Vec F Cert.Spec.SAcc .f32))
        ∗ (∃ W', ⌜∀ p ∈ W', p ∈ W ∨ p.2 = none⌝ ∗ owes (thr d L) O W')
        ∗ (inflightG m d L 0 ⟨0, by decide⟩ ⟨2, by decide⟩ (Transfers.shareTokN (tok (wL L)) 0) (Transfers.shareTokN (tok (wL L)) 2) (fbL L + 0) (blk_lt L (nBL_pos L))
          ∗ idleG m d L 1 ⟨1, by decide⟩ ⟨3, by decide⟩ (Transfers.shareTokN (tok (wL L)) 1) (Transfers.shareTokN (tok (wL L)) 3))) := by
  unfold pinv
  rw [dif_pos (nBL_pos L), show par 0 = 0 from rfl, stageIn]
  rfl

omit [FloatOps F] in

theorem bufI_join (L : grid0.Coords) (f g : Buf (Elt F) ((bufIM).view.loc (thr d L))) :
    iprop(((slotI 0).view.loc (thr d L) ↦[(slotI 0).view.set]{fullShare} f) ∗ ((slotI 1).view.loc (thr d L) ↦[(slotI 1).view.set]{fullShare} g))
      ⊢ (iprop(∃ h, (thr d L).loc cc0_scoped0 ↦{fullShare} h) : sProp 𝕄) := by
  rw [set_slotI, set_slotI]
  have h : iprop(((bufIM).view.loc (thr d L) ↦[(slotR 0).set]{fullShare} f) ∗ ((bufIM).view.loc (thr d L) ↦[(slotR 1).set]{fullShare} g))
      ⊢ ((bufIM).view.loc (thr d L) ↦[(slotR 0).set ∪ (slotR 1).set]{fullShare} ((slotR 1).set.piecewise g f) : sProp 𝕄) := pointsTo_join slots_disjoint
  rw [slots_cover] at h
  iintro H
  iexists _
  iapply h $$ H
omit [FloatOps F] in
theorem bufV_join (L : grid0.Coords) (f g : Buf (Elt F) ((bufVM).view.loc (thr d L))) :
    iprop(((slotV 0).view.loc (thr d L) ↦[(slotV 0).view.set]{fullShare} f) ∗ ((slotV 1).view.loc (thr d L) ↦[(slotV 1).view.set]{fullShare} g))
      ⊢ (iprop(∃ h, (thr d L).loc cc0_scoped2 ↦{fullShare} h) : sProp 𝕄) := by
  rw [set_slotV, set_slotV]
  have h : iprop(((bufVM).view.loc (thr d L) ↦[(slotR 0).set]{fullShare} f) ∗ ((bufVM).view.loc (thr d L) ↦[(slotR 1).set]{fullShare} g))
      ⊢ ((bufVM).view.loc (thr d L) ↦[(slotR 0).set ∪ (slotR 1).set]{fullShare} ((slotR 1).set.piecewise g f) : sProp 𝕄) := pointsTo_join slots_disjoint
  rw [slots_cover] at h
  iintro H
  iexists _
  iapply h $$ H

theorem stageOut_elim (L : grid0.Coords) (q : PosShare TreeShare) (p : Fin 2) :
    stageOut (F := F) m d L q p ⊢ iprop(idleG m d L 0 ⟨0, by decide⟩ ⟨2, by decide⟩ (Transfers.shareTokN q 0) (Transfers.shareTokN q 2)
      ∗ idleG m d L 1 ⟨1, by decide⟩ ⟨3, by decide⟩ (Transfers.shareTokN q 1) (Transfers.shareTokN q 3)) := by
  match p with
  | 0 => rw [stageOut]
  | 1 => rw [stageOut]; exact sep_comm.1

def zinv (L : grid0.Coords) (k : Nat) (_ : Unit) : sProp 𝕄 :=
  iprop(∃ f : Buf (Elt F) ((accM).view.loc (thr d L)), ((accM).view.loc (thr d L) ↦{fullShare} f)
    ∗ ⌜∀ j : S10000.Idx, (j 0).val < 16 * k → f j = Scalar.ofBits .f32 0x00000000#32⌝)

set_option maxRecDepth 65536 in
set_option maxHeartbeats 4000000 in

theorem tile_body (hr : ∀ (d : Dev nD) i, (m (eiLoc d) i).toNat < 10000) (L : grid0.Coords)
    (O : CellTallies nD τ sig (HIx 1)) (W : Waits sig (HIx 1)) (hO : ∀ g, O g none = 0) :
    iprop(levAts (K (F := F)).L (K (F := F)).lev ∗ emp ∗ (eiTok m d (wL L) ∗ evTok m d (wL L) ∗ ∃ f, spRowPts d (rL L) f)
        ∗ scopedBufs (thr d L) ∗ scopedSems0 (thr d L) ∗ owes (thr d L) O W)
      ⊢ wp frame (wpE (defs₀ (F := F)) 𝒱₀ (thr d L) none) Set.univ
          (cc0_seg_sum_kernel L (Memref.whole main_arg3_scv) (Memref.isWhole_whole _) (Memref.whole main_v0_scv) (Memref.isWhole_whole _)
            (Memref.whole main_v1_scv) (Memref.isWhole_whole _) (Memref.whole cc0_scratch0) (Memref.isWhole_whole _)
            (Memref.whole cc0_scoped0) (Memref.isWhole_whole _) cc0_scoped1 (Memref.whole cc0_scoped2) (Memref.isWhole_whole _) cc0_scoped3 cc0_scoped4)
          fun _ => iprop((eiTok m d (wL L) ∗ evTok m d (wL L) ∗ spRowPts d (rL L) (spOf m d)) ∗ scopedBufs (thr d L) ∗ scopedSems0 (thr d L)
            ∗ ∃ W', ⌜∀ p ∈ W', p ∈ W ∨ p.2 = none⌝ ∗ owes (thr d L) O W') := by
  have k0_h1 : k0_cond1 L = 1#1 := cond1_all L
  simp only [cc0_seg_sum_kernel_eq_skeleton]; unfold cc0_seg_sum_kernel_skel
  rw [(K (F := F)).scopedBufs_V facts d (cV L) (jV L), SparseCore.Cfg.scopedSems0_V (Val := Elt F) d (cV L) (jV L), ownSems0_V, ownBufs_V]
  iintro ⟨#Hlv, -, ⟨Hei, Hev, %f0, Hsp⟩, ⟨⟨%fa, Hacc⟩, ⟨%fi, HbI⟩, ⟨%fv, HbV⟩, Hbufs⟩, ⟨Hs0, Hs1, Hs2, Hs3, Hs4, Hsems⟩, HO⟩
  ihave Hmw := ((K (F := F)).mayWaits_none (thr := thr d L) hO) $$ Hlv
  ihave Hei' := (Entails.of_eq (pts_ei (F := F) d L _ _).symm) $$ Hei
  ihave Hev' := (Entails.of_eq (pts_ev (F := F) d L _ _).symm) $$ Hev
  ihave Hacc' := (Entails.of_eq (pts_acc (F := F) d L _).symm) $$ Hacc
  ihave HbI' := (Entails.of_eq (pts_bufI (F := F) d L _).symm) $$ HbI
  ihave HbV' := (Entails.of_eq (pts_bufV (F := F) d L _).symm) $$ HbV
  ihave Hsp' := (Entails.of_eq (pts_rowM (F := F) d L _).symm) $$ Hsp
  ihave HbI2 := (bufI_slots (F := F) d L _).1 $$ HbI'
  icases HbI2 with ⟨HI0, HI1⟩
  ihave HbV2 := (bufV_slots (F := F) d L _).1 $$ HbV'
  icases HbV2 with ⟨HV0, HV1⟩
  ihave Hx := (tok_split0 (F := F) _ (tok (wL L))).1 $$ Hei'
  icases Hx with ⟨Hx, HeiT0⟩
  ihave Hx2 := (tok_split (F := F) _ (tok (wL L)) 1).1 $$ Hx
  icases Hx2 with ⟨HeiD, HeiT1⟩
  ihave Hy := (tok_split0 (F := F) _ (tok (wL L))).1 $$ Hev'
  icases Hy with ⟨Hy, HevT0⟩
  ihave Hy2 := (tok_split (F := F) _ (tok (wL L)) 1).1 $$ Hy
  icases Hy2 with ⟨Hy2, HevT1⟩
  ihave Hy3 := (tok_split (F := F) _ (tok (wL L)) 2).1 $$ Hy2
  icases Hy3 with ⟨Hy3, HevT2⟩
  ihave Hy4 := (tok_split (F := F) _ (tok (wL L)) 3).1 $$ Hy3
  icases Hy4 with ⟨HevD, HevT3⟩
  have hb0 : fbL L + 0 < 250 := blk_lt L (nBL_pos L)
  have hcanonA2 := slotI_canon k0_off2 0 k0_off2_eq
  have hcanonB2 := slotV_canon k0_off2 0 k0_off2_eq
  have hcanonC4 := semI_canon0 k0_off4 k0_off4_eq
  have hcanonC5 := semV_canon0 k0_off4 k0_off4_eq
  have hcanonD3 := blkI_canon (k0_off3 L) (fbL L + 0) hb0 (off3_eq L)
  have hcanonD5 := blkV_canon (k0_off5 L) (fbL L + 0) hb0 (off5_eq L)
  sl_exec
  sl_for (zinv (F := F) d L) $$ [Hacc']
  case region =>
    intro k _
    unfold zinv
    iintro ⟨%f, Hacc, %hf⟩
    sl_exec
    sl_step
    iexists _; isplitl [Hacc]; · iexact Hacc
    ipureintro
    intro j hj
    have hrw := View.read_writes_cons_unit (accM).view f (k0_off1_inb k) (k0_pay1 (F := F)) [] j (k0_off1_eq k)
    refine hrw.trans ?_
    split_ifs with h
    · rfl
    · refine hf j ?_
      by_contra hlt
      apply h
      intro a
      obtain rfl : a = 0 := Subsingleton.elim _ _
      constructor
      · show 16 * k.val ≤ (j 0).val; omega
      · show (j 0).val < 16 * k.val + 16; omega
  · unfold zinv
    iexists _; isplitl [Hacc']; · iexact Hacc'
    ipureintro; intro j hj; omega
  iintro %_ HI
  unfold zinv
  icases HI with ⟨%fz, Hacc, %hz⟩
  have hfz : fz = (Cert.Spec.zeroAcc : Vec F Cert.Spec.SAcc .f32) := by
    funext j
    exact hz j (by rw [show Scf.trips k0_t1_loop.lb k0_t1_loop.ub k0_t1_loop.st = 625 from t1_trips]; have := (j 0).isLt; exact this)
  subst hfz
  sl_exec
  sl_for (pinv (F := F) m d L O W) $$ [Hmw Hacc HO Hs0 HeiT0 Hs2 HevT2 HI1 HV1 Hs1 Hs3 HeiT1 HevT3]
  case region =>
    intro k acc
    obtain ⟨p, p', hp, hp', _, hpp⟩ := par_cases k.val
    by_cases hnext : k.val + 1 < nBL L
    · rcases hpp with ⟨rfl, rfl⟩ | ⟨rfl, rfl⟩
      · exact trip_0x (F := F) m d hr L O W k0_h1 k hp hp' hnext acc
      · exact trip_1x (F := F) m d hr L O W k0_h1 k hp hp' hnext acc
    · rcases hpp with ⟨rfl, rfl⟩ | ⟨rfl, rfl⟩
      · exact trip_0n (F := F) m d hr L O W k0_h1 k hp hp' hnext acc
      · exact trip_1n (F := F) m d hr L O W k0_h1 k hp hp' hnext acc
  · iapply (Entails.of_eq (pinv_zero (F := F) m d L O W _).symm)
    unfold inflightG idleG
    isplitr
    · ipureintro; unfold car; rw [Nat.min_eq_left (Nat.succ_le_of_lt (nBL_pos L)), if_pos (nBL_pos L)]
    isplitr; · iexact Hmw
    isplitl [Hacc]; · iexact Hacc
    isplitl [HO]
    · iexists W; isplitr
      · ipureintro; exact fun p hp => .inl hp
      · iexact HO
    isplitl [Hs0 HeiT0 Hs2 HevT2]
    · isplitl [Hs0]; · iapply (flightI_conv (F := F) m d L 0 _ _ _ hb0 fi (tile_body.sl.dma0 m d L hb0) (holdsI_written (F := F) (m (eiLoc d)) 0 _ hb0 fi)) $$ Hs0
      isplitl [HeiT0]; · iexact HeiT0
      isplitl [Hs2]; · iapply (flightV_conv (F := F) m d L 0 _ _ _ hb0 fv (tile_body.sl.dma0_1 m d L hb0) (holdsV_written (F := F) (evOf m d) 0 _ hb0 fv)) $$ Hs2
      iexact HevT2
    · isplitl [HI1]; · iexists _; iexact HI1
      isplitl [HV1]; · iexists _; iexact HV1
      isplitl [Hs1]; · iexact Hs1
      isplitl [Hs3]; · iexact Hs3
      isplitl [HeiT1]; · iexact HeiT1
      iexact HevT3
  iintro %acc HI
  ihave HI' := (Entails.of_eq (pinv_at_end (F := F) m d L O W acc)) $$ HI
  icases HI' with ⟨%hacc, -, Hacc, ⟨%W', %hW', HO⟩, Hst⟩
  ihave Hst' := (stageOut_elim (F := F) m d L _ _) $$ Hst
  unfold idleG
  icases Hst' with ⟨⟨⟨%gi0, HI0⟩, ⟨%gv0, HV0⟩, Hs0, Hs2, HeiT0, HevT2⟩, ⟨%gi1, HI1⟩, ⟨%gv1, HV1⟩, Hs1, Hs3, HeiT1, HevT3⟩
  have hcarE : car (nBL L) (nBL L) = (BitVec.ofNat 32 (nBL L), BitVec.ofNat 32 (nBL L), BitVec.ofNat 32 (nBL L), BitVec.ofNat 32 (nBL L), BitVec.ofNat 32 0) := by
    unfold car; rw [Nat.min_eq_right (Nat.le_succ _), if_neg (lt_irrefl _)]
  rw [hcarE] at hacc
  subst hacc
  sl_exec
  sl_for0 (t4_trips L)
  sl_exec
  sl_step
  have hrow : ∀ i ∈ (rowM L).view.set,
      (rowM L).view.writes (Elt F) f0 [⟨Rect.whole S10000, tile_body.sl.dma0_2 m d L⟩] i = spOf m d i :=
    row_written (F := F) m d L f0
  isplitl [HeiD HeiT0 HeiT1 HevD HevT0 HevT1 HevT2 HevT3 Hsp']
  · isplitl [HeiD HeiT0 HeiT1]
    · iapply (Entails.of_eq (pts_ei (F := F) d L _ _))
      iapply (ei_rejoin (F := F) _ (tok (wL L)))
      isplitl [HeiD]; · iexact HeiD
      isplitl [HeiT0]; · iexact HeiT0
      iexact HeiT1
    isplitl [HevD HevT0 HevT1 HevT2 HevT3]
    · iapply (Entails.of_eq (pts_ev (F := F) d L _ _))
      iapply (ev_rejoin (F := F) _ (tok (wL L)))
      isplitl [HevD]; · iexact HevD
      isplitl [HevT0]; · iexact HevT0
      isplitl [HevT1]; · iexact HevT1
      isplitl [HevT2]; · iexact HevT2
      iexact HevT3
    · iapply (Entails.of_eq (pts_rowM (F := F) d L _))
      iapply (Entails.of_eq (pointsTo_congr hrow)) $$ Hsp'
  isplitl [Hacc HI0 HI1 HV0 HV1 Hbufs]
  · isplitl [Hacc]; · iexists _; iapply (Entails.of_eq (pts_acc (F := F) d L _)) $$ Hacc
    isplitl [HI0 HI1]
    · iapply (bufI_join (F := F) d L gi0 gi1) $$ [HI0 HI1]
      isplitl [HI0]; · iexact HI0
      iexact HI1
    isplitl [HV0 HV1]
    · iapply (bufV_join (F := F) d L gv0 gv1) $$ [HV0 HV1]
      isplitl [HV0]; · iexact HV0
      iexact HV1
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  rotate_left
  · iexact HO
  · ipureintro
    intro p hp
    rcases Finset.mem_insert.mp hp with rfl | hp
    · exact .inr rfl
    · exact hW' p hp

theorem defs₀_vector (c : Fin τ.nSC) (s : Fin τ.nSub) :
    defs₀ (F := F) (.scVector c s) 0 ()
      = SparseCore.onTile hcore0 hsub0 (fun c s => cc0_seg_sum_kernel (coordsV c s)
          (Memref.whole main_arg3_scv) (Memref.isWhole_whole _) (Memref.whole main_v0_scv) (Memref.isWhole_whole _)
          (Memref.whole main_v1_scv) (Memref.isWhole_whole _) (Memref.whole cc0_scratch0) (Memref.isWhole_whole _)
          (Memref.whole cc0_scoped0) (Memref.isWhole_whole _) cc0_scoped1 (Memref.whole cc0_scoped2) (Memref.isWhole_whole _) cc0_scoped3 cc0_scoped4) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hr : ∀ (d : Dev nD) i, (m (eiLoc d) i).toNat < 10000) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d hr (coordsV ⟨_, hc.1⟩ ⟨_, hc.2⟩) O W hO).trans (wp_mono frame _ _ fun _ => obl_post)

end Cert.KI

end
-- ==== Proof.KI.Run.lean ====
/-
  Every fair execution of the program's threads terminates without a fault and ends with @main's last arrays.
-/
import proofs.«207122_g38740605010510_cont_8to1_b_1101_12_alg».proof.Proof.KI.Main
import proofs.«207122_g38740605010510_cont_8to1_b_1101_12_alg».proof.Proof.KI.Tile

noncomputable section

namespace Cert.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

def u₀ : UU :=
  (initOf (K (F := F)).hsCells (K (F := F)).hsToks,
    (initOf (Pipeline.cells cfgs cellOf_inj) (Pipeline.launchToks cfgs cellOf_inj), 1))

omit [FloatOps F] in
theorem ownU_split (a : UH) (b : UP) :
    (ownU ((a, (b, 1)) : UU) : sProp 𝕄) ⊢ iprop(BI.own (EH a) ∗ BI.own (EP b)) :=
  ownU_pair a ((b, 1) : UP × Counters)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gp (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (cfgs := cfgs) (ER := EP) (hinj := cellOf_inj)) $$ HP with ⟨Hcg, Htk⟩
  imodintro
  isplitl [HH]; · iexact HH
  isplitl [Hcg Htk]
  · unfold Gp Pipeline.ghostOn Pipeline.PerCore.ghostOn
    simp only [bigSep_sep']
    isplitl [Hcg]; · iexact Hcg
    iexact Htk
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

def fq (d : Dev nD) (s' : Phys nD τ sig (Elt F)) : Prop := ∀ b ∈ uc, s'.mem.mem (d, b) = Wf m d b

theorem hfin (d : Dev nD) (s' : Phys nD τ sig (Elt F)) : iprop(FIN m d ∗ SI s') ⊢ (⌜fq m d s'⌝ : sProp 𝕄) := by
  show iprop(held (T d) uc (Wf m d) ∗ SI s') ⊢ _
  unfold held
  iintro ⟨Hh, HSI⟩
  ihave H := (pointsTo_read_all uc (fun b => (((T d : Thread nD τ)).1, b)) (Wf m d) s') $$ [Hh HSI]
  · isplitl [Hh] <;> iassumption
  icases H with ⟨%h, -⟩
  ipureintro; exact h

def QC : PUnit × MemSt nD τ sig (Elt F) → Prop := fun r => ∀ c : Dev nD, ∀ b ∈ uc, r.2.mem (c, b) = Wf m c b

theorem run_main [∀ e, Nonempty (Elt F e)] (hr : ∀ (d : Dev nD) i, (m (eiLoc d) i).toNat < 10000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hr)
    (fun q _ => match q with | 0 => SparseCore.Cfg.VecSplit.of_plain (vecSplit m))
    m ρ main (Gp (F := F)) (FIN m) (u₀ (F := F)) (sep_elim_left.trans (hu₀ m)) (hmain m ρ) (fq m) (hfin m) (QC m) (fun _ h => h)

end Cert.KI

end
-- ==== Proof.KI.Value.lean ====
/-
  Each argument ends as launched, and the result ends as the scaling call's payload of the summed partial sums, the
  node scale, the matrix product and the bias row: no step writes anything but its own result.
-/
import proofs.«207122_g38740605010510_cont_8to1_b_1101_12_alg».proof.Proof.KI.Main
import Idealize.ShloMosaic.Lib.Pipeline.Value
import Idealize.ShloMosaic.Lib.ValueIdx

set_option maxRecDepth 16384

noncomputable section

namespace Cert.KI

open Cert.KernelIdeal Cert.KernelIdeal.Gen

open Idealize.ShloMosaic Idealize.ShloMosaic.TcCoe Idealize.ShloMosaic.ValueIdx
open Idealize.ShloMosaic.SparseCore (T)
open Idealize.ShloMosaic.SparseCore.Cfg (HIx)
open Idealize.SL.Sem

variable {F : FTy → Type} [FloatOps F]

variable (m : (ℓ : Loc nD τ sig) → Buf (Elt F) ℓ)

-- The copy and the bias reshape write only their own results.
theorem We_eq_Wd (c : Dev nD) (b : Ref sig .tc) (hC : (Proc.devRef .tc b : DevRef τ sig) ≠ Proc.devRef .tc main_v4)
    (hB : (Proc.devRef .tc b : DevRef τ sig) ≠ Proc.devRef .tc main_v3) :
    We m c (Proc.devRef .tc b) = Wd m c (Proc.devRef .tc b) :=
  ((opCopy (F := F)).result_of_not_mem _ (notW_copy hC)).trans ((opBias (F := F)).result_of_not_mem _ (notW_bias hB))

-- The weights reshape and the partial sums write only their own results.
theorem Wc_eq_m (c : Dev nD) (b : Ref sig .tc) (hs : (Proc.devRef .tc b : DevRef τ sig) ≠ sp')
    (hR : (Proc.devRef .tc b : DevRef τ sig) ≠ Proc.devRef .tc main_v0) :
    Wc m c (Proc.devRef .tc b) = m ((c : Thread nD τ).loc b) :=
  (Function.update_of_ne hs _ _).trans ((opRow (F := F)).result_of_not_mem _ (notW_row hR))

theorem We_eq_m (c : Dev nD) (b : Ref sig .tc) (hC : (Proc.devRef .tc b : DevRef τ sig) ≠ Proc.devRef .tc main_v4)
    (hB : (Proc.devRef .tc b : DevRef τ sig) ≠ Proc.devRef .tc main_v3) (h1 : ∀ w, Pipeline.arrRef spec1 w ≠ b)
    (hs : (Proc.devRef .tc b : DevRef τ sig) ≠ sp') (hR : (Proc.devRef .tc b : DevRef τ sig) ≠ Proc.devRef .tc main_v0) :
    We m c (Proc.devRef .tc b) = m ((c : Thread nD τ).loc b) :=
  (We_eq_Wd m c b hC hB).trans ((Wd_of_ne m c b h1).trans (Wc_eq_m m c b hs hR))

-- An input array of the matrix product, written by nothing.
theorem Wf_in1 (c : Dev nD) (w : Fin cfg1.W) (hw : w ≠ 2) (h2 : ∀ w', Pipeline.arrRef spec2 w' ≠ Pipeline.arrRef spec1 w)
    (hC : (Proc.devRef .tc (Pipeline.arrRef spec1 w) : DevRef τ sig) ≠ Proc.devRef .tc main_v4)
    (hB : (Proc.devRef .tc (Pipeline.arrRef spec1 w) : DevRef τ sig) ≠ Proc.devRef .tc main_v3)
    (hs : (Proc.devRef .tc (Pipeline.arrRef spec1 w) : DevRef τ sig) ≠ sp')
    (hR : (Proc.devRef .tc (Pipeline.arrRef spec1 w) : DevRef τ sig) ≠ Proc.devRef .tc main_v0) :
    Wf m c (Proc.devRef .tc (Pipeline.arrRef spec1 w)) = m ((c : Thread nD τ).loc (Pipeline.arrRef spec1 w)) :=
  (Wf_of_ne m c _ h2).trans ((We_eq_Wd m c _ hC hB).trans
    (((Wd_arr m c w).trans (arrAt1_in (Vc m) c w hw)).trans (Wc_eq_m m c _ hs hR)))

theorem Wf_untouched (c : Dev nD) (b : Ref sig .tc) (h2 : ∀ w, Pipeline.arrRef spec2 w ≠ b)
    (hC : (Proc.devRef .tc b : DevRef τ sig) ≠ Proc.devRef .tc main_v4)
    (hB : (Proc.devRef .tc b : DevRef τ sig) ≠ Proc.devRef .tc main_v3) (h1 : ∀ w, Pipeline.arrRef spec1 w ≠ b)
    (hs : (Proc.devRef .tc b : DevRef τ sig) ≠ sp') (hR : (Proc.devRef .tc b : DevRef τ sig) ≠ Proc.devRef .tc main_v0) :
    Wf m c (Proc.devRef .tc b) = m ((c : Thread nD τ).loc b) :=
  (Wf_of_ne m c b h2).trans (We_eq_m m c b hC hB h1 hs hR)

theorem Wf_arg0 (c : Dev nD) : Wf m c (Proc.devRef .tc main_arg0) = m ((c : Thread nD τ).loc main_arg0) :=
  Wf_in1 m c 0 (by decide) (by decide) (by decide) (by decide) (by decide) (by decide)
theorem Wf_arg4 (c : Dev nD) : Wf m c (Proc.devRef .tc main_arg4) = m ((c : Thread nD τ).loc main_arg4) :=
  Wf_in1 m c 1 (by decide) (by decide) (by decide) (by decide) (by decide) (by decide)
theorem Wf_arg1 (c : Dev nD) : Wf m c (Proc.devRef .tc main_arg1) = m ((c : Thread nD τ).loc main_arg1) :=
  Wf_untouched m c main_arg1 (by decide) (by decide) (by decide) (by decide) (by decide) (by decide)
theorem Wf_arg3 (c : Dev nD) : Wf m c (Proc.devRef .tc main_arg3) = m ((c : Thread nD τ).loc main_arg3) :=
  Wf_untouched m c main_arg3 (by decide) (by decide) (by decide) (by decide) (by decide) (by decide)
theorem Wf_arg5 (c : Dev nD) : Wf m c (Proc.devRef .tc main_arg5) = m ((c : Thread nD τ).loc main_arg5) :=
  Wf_untouched m c main_arg5 (by decide) (by decide) (by decide) (by decide) (by decide) (by decide)

theorem We_norm (c : Dev nD) : We m c (Proc.devRef .tc main_arg2) = m ((c : Thread nD τ).loc main_arg2) :=
  We_eq_m m c main_arg2 (by decide) (by decide) (by decide) (by decide) (by decide)

-- The node scale is an input of the scaling call.
theorem Wf_arg2 (c : Dev nD) : Wf m c (Proc.devRef .tc main_arg2) = m ((c : Thread nD τ).loc main_arg2) :=
  ((Wf_arr m c 2).trans (arrAt2_in (Ve m) c 2 (by decide))).trans (We_norm m c)

theorem We_sp (c : Dev nD) : We m c (Proc.devRef .tc main_v1) = spOf m c :=
  (We_eq_Wd m c main_v1 (by decide) (by decide)).trans ((Wd_of_ne m c main_v1 (by decide)).trans (Wc_sp m c))

theorem We_prod (c : Dev nD) :
    We m c (Proc.devRef .tc main_v2) = k1_pay1 (m ((c : Thread nD τ).loc main_arg0)) (m ((c : Thread nD τ).loc main_arg4)) :=
  calc We m c (Proc.devRef .tc main_v2)
    _ = Wd m c (Proc.devRef .tc main_v2) := We_eq_Wd m c main_v2 (by decide) (by decide)
    _ = k1_pay1 (Vc m c main_arg0) (Vc m c main_arg4) := (Wd_arr m c 2).trans (arrAt1_out (Vc m) c)
    _ = _ := by rw [show Vc m c main_arg0 = m ((c : Thread nD τ).loc main_arg0) from Wc_eq_m m c main_arg0 (by decide) (by decide),
                    show Vc m c main_arg4 = m ((c : Thread nD τ).loc main_arg4) from Wc_eq_m m c main_arg4 (by decide) (by decide)]

def biasRow (c : Dev nD) : Buf (Elt F) ((c : Thread nD τ).loc main_v3) := We m c (Proc.devRef .tc main_v3)

theorem Wf_result (c : Dev nD) :
    Wf m c (Proc.devRef .tc main_v4)
      = k2_pay1 (spOf m c) (m ((c : Thread nD τ).loc main_arg2))
          (k1_pay1 (m ((c : Thread nD τ).loc main_arg0)) (m ((c : Thread nD τ).loc main_arg4))) (biasRow m c) := by
  rw [Wf_arr m c 4, arrAt2_out (Ve m) c]
  rw [show Ve m c main_v1 = spOf m c from We_sp m c, show Ve m c main_arg2 = m ((c : Thread nD τ).loc main_arg2) from We_norm m c,
    show Ve m c main_v2 = _ from We_prod m c]
  rfl

end Cert.KI

end
-- ==== Proof.KI.Payloads.lean ====
/-
  The two TensorCore bodies at one index on the extended reals: Σ_k x[n,k]·w[j,k], and
  product[n,j] · ((Σ_r partial[r,n]) · norm n) + bias j · norm n.
-/
import proofs.«207122_g38740605010510_cont_8to1_b_1101_12_alg».proof.Proof.Gen.KernelIdeal.Skeleton
import proofs.«207122_g38740605010510_cont_8to1_b_1101_12_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KI.Payloads

open Cert.KernelIdeal Cert.KernelIdeal.Gen
open Idealize.ShloMosaic Idealize.ShloMosaic.ValueIdx

open scoped BigOperators

theorem lhs_mm_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_mm_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_mm_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_mm_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

theorem mm_apply (x0 : Vec Ideal S10000x128 .f32) (x4 : Vec Ideal S128x128 .f32) (n : Fin 10000) (j : Fin 128) :
    k1_pay1 (F := Ideal) x0 x4 (ix2 n j) = ∑ k : Fin 128, x0 (ix2 n k) * x4 (ix2 j k) := by
  unfold k1_pay1
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 n j) ((contrEquiv1 dot_S10000x128_S128x128_S10000x128_1_1_0_0_n_n 128 rfl rfl).symm k) = ix2 n k := funext fun a => Fin.ext (by
    match a with
    | ⟨0, _⟩ => exact lhs_mm_0 _ _
    | ⟨1, _⟩ => exact (lhs_mm_1 _ _).trans hk)
  have er : dot_S10000x128_S128x128_S10000x128_1_1_0_0_n_n.rhsIdx (ix2 n j) ((contrEquiv1 dot_S10000x128_S128x128_S10000x128_1_1_0_0_n_n 128 rfl rfl).symm k) = ix2 j k := funext fun a => Fin.ext (by
    match a with
    | ⟨0, _⟩ => exact rhs_mm_0 _ _
    | ⟨1, _⟩ => exact (rhs_mm_1 _ _).trans hk)
  rw [el, er]

theorem lhs_sc_0 (i : S10000x1.Idx) (q : dot_S32x10000_S32x1_S10000x1_0_0_1_1_n_n.contr.Idx) :
    (dot_S32x10000_S32x1_S10000x1_0_0_1_1_n_n.lhsIdx i q 0).val = (q ⟨0, by decide⟩).val :=
  dot_S32x10000_S32x1_S10000x1_0_0_1_1_n_n.lhsIdx_val_of_single rfl i q
theorem lhs_sc_1 (i : S10000x1.Idx) (q : dot_S32x10000_S32x1_S10000x1_0_0_1_1_n_n.contr.Idx) :
    (dot_S32x10000_S32x1_S10000x1_0_0_1_1_n_n.lhsIdx i q 1).val = (i 0).val := by
  unfold DotDims.lhsIdx
  rw [dif_neg (show ¬(1 : Fin S32x10000.rank) ∈ dot_S32x10000_S32x1_S10000x1_0_0_1_1_n_n.lhsBatch by decide), dif_pos (show (1 : Fin S32x10000.rank) ∈ dot_S32x10000_S32x1_S10000x1_0_0_1_1_n_n.lhsNonContracting by decide)]
  rfl
theorem rhs_sc_0 (i : S10000x1.Idx) (q : dot_S32x10000_S32x1_S10000x1_0_0_1_1_n_n.contr.Idx) :
    (dot_S32x10000_S32x1_S10000x1_0_0_1_1_n_n.rhsIdx i q 0).val = (q ⟨0, by decide⟩).val :=
  dot_S32x10000_S32x1_S10000x1_0_0_1_1_n_n.rhsIdx_val_of_single rfl i q
theorem rhs_sc_1 (i : S10000x1.Idx) (q : dot_S32x10000_S32x1_S10000x1_0_0_1_1_n_n.contr.Idx) :
    (dot_S32x10000_S32x1_S10000x1_0_0_1_1_n_n.rhsIdx i q 1).val = (i 1).val := by
  unfold DotDims.rhsIdx
  rw [dif_neg (show ¬(1 : Fin S32x1.rank) ∈ dot_S32x10000_S32x1_S10000x1_0_0_1_1_n_n.rhsBatch by decide), dif_pos (show (1 : Fin S32x1.rank) ∈ dot_S32x10000_S32x1_S10000x1_0_0_1_1_n_n.rhsNonContracting by decide)]
  rfl

theorem rowsum_apply (x : FVec Ideal S32x10000 .f32) (y : FVec Ideal S32x1 .f32) (n : Fin 10000) :
    matmul dot_S32x10000_S32x1_S10000x1_0_0_1_1_n_n none x y (constant (F := Ideal) S10000x1 .f32 0x00000000#32) (ix2 n (0 : Fin 1))
      = ∑ r : Fin 32, x (ix2 r n) * y (ix2 r (0 : Fin 1)) := by
  simp only [matmul]
  rw [Ideal.matmul_constant_zero_apply, ← Equiv.sum_comp (contrEquiv1 dot_S32x10000_S32x1_S10000x1_0_0_1_1_n_n 32 rfl rfl).symm]
  refine Finset.sum_congr rfl fun r _ => ?_
  have hr := contrEquiv1_symm_val dot_S32x10000_S32x1_S10000x1_0_0_1_1_n_n 32 rfl rfl r
  have el : dot_S32x10000_S32x1_S10000x1_0_0_1_1_n_n.lhsIdx (ix2 n (0 : Fin 1)) ((contrEquiv1 dot_S32x10000_S32x1_S10000x1_0_0_1_1_n_n 32 rfl rfl).symm r) = ix2 r n := funext fun a => Fin.ext (by
    match a with
    | ⟨0, _⟩ => exact (lhs_sc_0 _ _).trans hr
    | ⟨1, _⟩ => exact lhs_sc_1 _ _)
  have er : dot_S32x10000_S32x1_S10000x1_0_0_1_1_n_n.rhsIdx (ix2 n (0 : Fin 1)) ((contrEquiv1 dot_S32x10000_S32x1_S10000x1_0_0_1_1_n_n 32 rfl rfl).symm r) = ix2 r (0 : Fin 1) := funext fun a => Fin.ext (by
    match a with
    | ⟨0, _⟩ => exact (rhs_sc_0 _ _).trans hr
    | ⟨1, _⟩ => exact rhs_sc_1 _ _)
  rw [el, er]

theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem ofBits_one_f32 : Ideal.ofBits .f32 0x3F800000#32 = 1 := by
  simp [Ideal.ofBits, Ideal.ieee, -EReal.coe_mul]; norm_num

theorem scale_apply (sp : Vec Ideal S32x10000 .f32) (nrm : Vec Ideal S10000x1 .f32)
    (p : Vec Ideal S10000x128 .f32) (b : Vec Ideal S1x128 .f32) (n : Fin 10000) (j : Fin 128) :
    k2_pay1 (F := Ideal) sp nrm p b (ix2 n j)
      = p (ix2 n j) * ((∑ r : Fin 32, sp (ix2 r n)) * nrm (ix2 n (0 : Fin 1))) + b (ix2 (0 : Fin 1) j) * nrm (ix2 n (0 : Fin 1)) := by
  unfold k2_pay1
  simp only [shapeCast_self]
  rw [addf_apply, mulf_apply, mulf_apply, broadcastTo_a1_ab_apply, broadcastTo_1b_ab_apply, broadcastTo_a1_ab_apply, mulf_apply, rowsum_apply]
  have h1 : ∀ r : Fin 32, sp (ix2 r n) * broadcast S32x1 (Scalar.ofBits (F := Ideal) .f32 0x3F800000#32) (ix2 r (0 : Fin 1)) = sp (ix2 r n) := fun r => by
    rw [broadcast_apply]
    show sp (ix2 r n) * Ideal.ofBits .f32 0x3F800000#32 = sp (ix2 r n)
    rw [ofBits_one_f32, mul_one]
  rw [Finset.sum_congr rfl fun r _ => h1 r]

end Cert.KI.Payloads
-- ==== Proof.Partials.lean ====
/-
  The thirty-two workers' partial sums at a node add up to the sum of the weights of the edges into it: an indexed add
  accumulates every lane, duplicates included, and the workers' block ranges tile the edges.
-/
import proofs.«207122_g38740605010510_cont_8to1_b_1101_12_alg».proof.Proof.Spec
import Idealize.ShloMosaic.PureOps.ShapeOps
import Idealize.ShloMosaic.PureOps.Ideal.Laws
import Mathlib.Algebra.BigOperators.Fin
import Mathlib.Algebra.BigOperators.Intervals
import Mathlib.Data.Fintype.Card
import Mathlib.Order.Interval.Finset.Nat
import Mathlib.Order.Monotone.Basic

noncomputable section

open scoped BigOperators

namespace Cert.Spec.Partials

open Idealize.ShloMosaic Idealize.ShloMosaic.ValueIdx Cert.Spec

theorem storeIdx_apply {s : Shape} {d : Fin 1 → Nat} (acc : Vec Ideal s .f32) (idxs : Fin s.rank → IVec ⟨1, d⟩ 32)
    (v : Vec Ideal ⟨1, d⟩ .f32) (h : ∀ a x, (idxs a x).toNat < s.size a) (j : s.Idx) :
    storeIdx acc idxs v (fun _ => 1#1) true h j
      = acc j + ∑ k : Fin (d 0),
          if (∀ a, (j a).val = (idxs a (Shape.ofLane k)).toNat) then v (Shape.ofLane k) else 0 := by
  unfold storeIdx
  rw [Fin.sum_univ_def]
  generalize List.finRange (d 0) = L
  induction L generalizing acc with
  | nil => simp
  | cons k L ih =>
    rw [List.foldl_cons, ih, List.map_cons, List.sum_cons, ← add_assoc]
    congr 1

    have h1 : (1#1 : BitVec 1) = 1 := rfl
    dsimp only
    rw [if_pos h1]
    beta_reduce
    by_cases hc : ∀ a, (j a).val = (idxs a (Shape.ofLane k)).toNat
    · have hj : idxAt idxs h (Shape.ofLane k) = j := funext fun a => Fin.ext (hc a).symm
      have hc' : ∀ a, (j a).val = (idxAt idxs h (Shape.ofLane k) a).val := hc
      rw [if_pos hc, if_pos hc', hj]
      simp
    · have hc' : ¬ ∀ a, (j a).val = (idxAt idxs h (Shape.ofLane k) a).val := hc
      rw [if_neg hc, if_neg hc', add_zero]

theorem ofLane_eq (l : Fin 16) : (Shape.ofLane (d := ![16]) l : SLanes.Idx) = ix1 l := by
  funext a; match a with | ⟨0, _⟩ => rfl

theorem scat_apply (acc : Vec Ideal SAcc .f32) (idx : IVec SLanes 32) (v : Vec Ideal SLanes .f32)
    (hidx : ∀ x, (idx x).toNat < 10000) (j : Fin 10000) :
    scat acc idx v (ix1 j)
      = acc (ix1 j) + ∑ l : Fin 16, if (idx (ix1 l)).toNat = j.val then v (ix1 l) else 0 := by
  have H : ∀ (a : Fin SAcc.rank) (x : SLanes.Idx),
      ((![idx] : Fin 1 → IVec SLanes 32) a x).toNat < SAcc.size a := by
    intro a x
    have ha : a = 0 := Fin.eq_zero a
    subst ha
    exact hidx x
  unfold scat
  rw [dif_pos H, storeIdx_apply]
  congr 1
  refine Finset.sum_congr rfl fun (l : Fin 16) _ => ?_
  rw [ofLane_eq]
  refine if_congr ⟨fun hc => (hc 0).symm, fun hc a => ?_⟩ rfl rfl
  have ha : a = 0 := Fin.eq_zero a
  subst ha
  exact hc.symm

def contrib (ei : IVec SEnds 32) (ev : Vec Ideal SEdgesRow .f32) (n : Fin 10000) (e : Nat) : EReal :=
  if h : e < 320000 then (if dstOf ei ⟨e, h⟩ = n.val then ev (ix2 (0 : Fin 1) ⟨e, h⟩) else 0) else 0

theorem dstChunk_apply (ei : IVec SEnds 32) (b k : Nat) (l : Fin 16) (h : 1280 * b + 16 * k + l.val < 320000) :
    dstChunk ei b k (ix1 l) = ei (ix2 (1 : Fin 2) ⟨1280 * b + 16 * k + l.val, h⟩) := by
  unfold dstChunk
  exact dif_pos h

theorem wtChunk_apply (ev : Vec Ideal SEdgesRow .f32) (b k : Nat) (l : Fin 16)
    (h : 1280 * b + 16 * k + l.val < 320000) :
    wtChunk ev b k (ix1 l) = ev (ix2 (0 : Fin 1) ⟨1280 * b + 16 * k + l.val, h⟩) := by
  unfold wtChunk
  exact dif_pos h

theorem dstChunk_lt (ei : IVec SEnds 32) (hr : ∀ i, (ei i).toNat < 10000) (b k : Nat) (x : SLanes.Idx) :
    (dstChunk ei b k x).toNat < 10000 := by
  unfold dstChunk
  split
  · exact hr _
  · simp

theorem scat_chunk (ei : IVec SEnds 32) (ev : Vec Ideal SEdgesRow .f32) (hr : ∀ i, (ei i).toNat < 10000)
    (b k : Nat) (hbk : 1280 * b + 16 * k + 16 ≤ 320000) (acc : Vec Ideal SAcc .f32) (n : Fin 10000) :
    scat acc (dstChunk ei b k) (wtChunk ev b k) (ix1 n)
      = acc (ix1 n) + ∑ l ∈ Finset.range 16, contrib ei ev n (1280 * b + 16 * k + l) := by
  rw [scat_apply acc _ _ (dstChunk_lt ei hr b k) n, Finset.sum_range]
  congr 1
  refine Finset.sum_congr rfl fun l _ => ?_
  have hl : 1280 * b + 16 * k + l.val < 320000 := by have := l.isLt; omega
  rw [dstChunk_apply ei b k l hl, wtChunk_apply ev b k l hl]
  unfold contrib
  rw [dif_pos hl]
  rfl

theorem chunkFold_apply (ei : IVec SEnds 32) (ev : Vec Ideal SEdgesRow .f32) (hr : ∀ i, (ei i).toNat < 10000)
    (b : Nat) (hb : b < 250) (n : Fin 10000) (k : Nat) (hk : k ≤ 80) (acc : Vec Ideal SAcc .f32) :
    chunkFold ei ev b k acc (ix1 n)
      = acc (ix1 n) + ∑ i ∈ Finset.range (16 * k), contrib ei ev n (1280 * b + i) := by
  induction k with
  | zero => simp [chunkFold]
  | succ k ih =>
    rw [chunkFold_succ, scat_chunk ei ev hr b k (by omega), ih (by omega),
      show 16 * (k + 1) = 16 * k + 16 by omega, Finset.sum_range_add, add_assoc (acc (ix1 n))]
    simp only [Nat.add_assoc]

theorem blockFold_apply (ei : IVec SEnds 32) (ev : Vec Ideal SEdgesRow .f32) (hr : ∀ i, (ei i).toNat < 10000)
    (s : Nat) (n : Fin 10000) (t : Nat) (hst : s + t ≤ 250) (acc : Vec Ideal SAcc .f32) :
    blockFold ei ev s t acc (ix1 n)
      = acc (ix1 n) + ∑ i ∈ Finset.range (1280 * t), contrib ei ev n (1280 * s + i) := by
  induction t with
  | zero => simp [blockFold]
  | succ t ih =>
    rw [blockFold_succ, chunkFold_apply ei ev hr (s + t) (by omega) n 80 le_rfl, ih (by omega),
      show 1280 * (t + 1) = 1280 * t + 1280 by omega, Finset.sum_range_add, add_assoc (acc (ix1 n))]
    congr 2
    refine Finset.sum_congr rfl fun i _ => ?_
    congr 1
    omega

theorem firstBlock_succ (w : Nat) : firstBlock (w + 1) = firstBlock w + nBlocks w := by
  unfold firstBlock nBlocks
  split_ifs <;> omega

theorem workerAcc_apply (ei : IVec SEnds 32) (ev : Vec Ideal SEdgesRow .f32) (hr : ∀ i, (ei i).toNat < 10000)
    (w : Nat) (hw : w < 32) (n : Fin 10000) :
    workerAcc ei ev w (ix1 n)
      = ∑ e ∈ Finset.Ico (1280 * firstBlock w) (1280 * firstBlock (w + 1)), contrib ei ev n e := by
  unfold workerAcc
  rw [blockFold_apply ei ev hr (firstBlock w) n (nBlocks w) (firstBlock_add_nBlocks_le w hw),
    Finset.sum_Ico_eq_sum_range, firstBlock_succ, Nat.mul_add, Nat.add_sub_cancel_left]
  show Ideal.ofBits .f32 0x00000000#32 + _ = _
  rw [Ideal.ofBits_zero_f32, zero_add]

theorem sum_Ico_tile (f : Nat → EReal) (B : Nat → Nat) (hB : ∀ w, B w ≤ B (w + 1)) (m : Nat) :
    ∑ w ∈ Finset.range m, ∑ e ∈ Finset.Ico (B w) (B (w + 1)), f e = ∑ e ∈ Finset.Ico (B 0) (B m), f e := by
  induction m with
  | zero => simp
  | succ m ih =>
    rw [Finset.sum_range_succ, ih,
      Finset.sum_Ico_consecutive f (monotone_nat_of_le_succ hB (Nat.zero_le m)) (hB m)]

theorem sum_rows (G : Nat → EReal) : ∑ r : Fin 32, G (workerOfRow r.val) = ∑ w ∈ Finset.range 32, G w := by
  rw [Finset.sum_range]
  have hlt : ∀ r : Fin 32, workerOfRow r.val < 32 := by
    intro r; have := r.isLt; unfold workerOfRow; omega
  have hσ : Function.Bijective (fun r : Fin 32 => (⟨workerOfRow r.val, hlt r⟩ : Fin 32)) := by
    apply Finite.injective_iff_bijective.mp
    intro a b hab
    have h := congrArg Fin.val hab
    simp only [workerOfRow] at h
    have := a.isLt; have := b.isLt
    ext; omega
  exact hσ.sum_comp (fun w : Fin 32 => G w.val)

theorem sum_partials (ei : IVec Cert.Spec.SEnds 32) (ev : Vec Ideal Cert.Spec.SEdgesRow .f32)
    (hr : ∀ i, (ei i).toNat < 10000) (n : Fin 10000) :
    (∑ r : Fin 32, Cert.Spec.partials (F := Ideal) ei ev (ix2 r n))
      = Cert.Spec.segSum ei (fun e => ev (ix2 (0 : Fin 1) e)) n := by
  have hrow : ∀ r : Fin 32, partials (F := Ideal) ei ev (ix2 r n)
      = ∑ e ∈ Finset.Ico (1280 * firstBlock (workerOfRow r.val)) (1280 * firstBlock (workerOfRow r.val + 1)),
          contrib ei ev n e := by
    intro r
    have hlt : workerOfRow r.val < 32 := by have := r.isLt; unfold workerOfRow; omega
    exact workerAcc_apply ei ev hr (workerOfRow r.val) hlt n
  rw [Finset.sum_congr rfl fun r _ => hrow r,
    sum_rows fun w => ∑ e ∈ Finset.Ico (1280 * firstBlock w) (1280 * firstBlock (w + 1)), contrib ei ev n e,
    sum_Ico_tile (contrib ei ev n) (fun w => 1280 * firstBlock w)
      (fun w => by rw [firstBlock_succ]; omega) 32]
  have h0 : 1280 * firstBlock 0 = 0 := by simp [firstBlock]
  have h32 : 1280 * firstBlock 32 = 320000 := by simp [firstBlock]
  simp only [h0, h32]
  rw [← Finset.range_eq_Ico, Finset.sum_range]
  unfold segSum
  refine Finset.sum_congr rfl fun e _ => ?_
  unfold contrib
  rw [dif_pos e.isLt]

end Cert.Spec.Partials

end
-- ==== Proof.KI.Bridge.lean ====
/-
  On the extended reals the kernel's result is the layer with the edge weights summed first.
-/
import proofs.«207122_g38740605010510_cont_8to1_b_1101_12_alg».proof.Proof.KI.Value
import proofs.«207122_g38740605010510_cont_8to1_b_1101_12_alg».proof.Proof.KI.Payloads
import proofs.«207122_g38740605010510_cont_8to1_b_1101_12_alg».proof.Proof.Partials
import Idealize.ShloMosaic.Lib.Pipeline.Value
import Idealize.ShloMosaic.Lib.ValueIdx
import Idealize.ShloMosaic.Lib.StableHlo.Run

set_option maxRecDepth 16384

noncomputable section

namespace Cert.KI

open Cert.KernelIdeal Cert.KernelIdeal.Gen

open Idealize.ShloMosaic Idealize.ShloMosaic.TcCoe Idealize.ShloMosaic.ValueIdx Idealize.ShloMosaic.StableHlo
open Idealize.ShloMosaic.SparseCore (T)
open Idealize.SL.Sem

variable (m : (ℓ : Loc nD τ sig) → Buf (Elt Ideal) ℓ)

theorem evOf_apply (d : Dev nD) (e : Fin 320000) :
    evOf m d (ix2 (0 : Fin 1) e) = m ((d : Thread nD τ).loc main_arg1) (ix2 e (0 : Fin 1)) := by
  unfold evOf
  after_results
  refine shapeCast_apply _ _ _ (ix2 e (0 : Fin 1)) ?_
  show ((⟨2, ![320000, 1]⟩ : Shape).rowMajor (ix2 e (0 : Fin 1))).val = ((⟨2, ![1, 320000]⟩ : Shape).rowMajor (ix2 (0 : Fin 1) e)).val
  rw [Shape.rowMajor_val_two, Shape.rowMajor_val_two]
  show e.val * 1 + 0 = 0 * 320000 + e.val
  omega

theorem biasRow_apply (c : Dev nD) (j : Fin 128) :
    biasRow m c (ix2 (0 : Fin 1) j) = m ((c : Thread nD τ).loc main_arg5) (ix1 j) := by
  unfold biasRow We
  rw [(opCopy (F := Ideal)).result_of_not_mem _ (b := Proc.devRef .tc main_v3) (by decide)]
  show StableHlo.after [opBias (F := Ideal)] (Wd m c) (Proc.devRef .tc main_v3) (ix2 (0 : Fin 1) j) = _
  after_results
  rw [show Wd m c (Proc.devRef .tc main_arg5) = m ((c : Thread nD τ).loc main_arg5) from
    (Wd_of_ne m c main_arg5 (by decide)).trans (Wc_eq_m m c main_arg5 (by decide) (by decide))]
  refine shapeCast_apply _ _ _ (ix1 j) ?_
  show ((⟨1, ![128]⟩ : Shape).rowMajor (ix1 j)).val = ((⟨2, ![1, 128]⟩ : Shape).rowMajor (ix2 (0 : Fin 1) j)).val
  rw [Shape.rowMajor_val_one, Shape.rowMajor_val_two]
  show j.val = 0 * 128 + j.val
  omega

theorem sum_rows (c : Dev nD) (hr : ∀ i, (m (eiLoc c) i).toNat < 10000) (n : Fin 10000) :
    (∑ r : Fin 32, spOf m c (ix2 r n) : Elt Ideal .f32)
      = Cert.Spec.segSum (m (eiLoc c)) (fun e => m ((c : Thread nD τ).loc main_arg1) (ix2 e (0 : Fin 1))) n := by
  unfold spOf
  rw [Cert.Spec.Partials.sum_partials (m (eiLoc c)) (evOf m c) hr n]
  unfold Cert.Spec.segSum
  exact Finset.sum_congr rfl fun e _ => by beta_reduce; rw [evOf_apply]

theorem result_eq (c : Dev nD) (hr : ∀ i, (m (eiLoc c) i).toNat < 10000) :
    Wf m c (Proc.devRef .tc main_v4)
      = Cert.Spec.layerOut (m ((c : Thread nD τ).loc main_arg0)) (fun e => m ((c : Thread nD τ).loc main_arg1) (ix2 e (0 : Fin 1)))
          (fun n => m ((c : Thread nD τ).loc main_arg2) (ix2 n (0 : Fin 1))) (m ((c : Thread nD τ).loc main_arg3))
          (m ((c : Thread nD τ).loc main_arg4)) (fun j => m ((c : Thread nD τ).loc main_arg5) (ix1 j)) := by
  rw [Wf_result]
  funext i
  obtain ⟨n, j, rfl⟩ : ∃ (n : Fin 10000) (j : Fin 128), i = ix2 n j := ⟨i 0, i 1, eq_ix2 i⟩
  rw [Cert.KI.Payloads.scale_apply, sum_rows m c hr n, biasRow_apply]
  unfold Cert.Spec.layerOut
  simp only [Cert.KI.Payloads.mm_apply]

end Cert.KI

end
-- ==== Proof.lean ====
/-
  A graph layer: at node n and feature j,  (Σ_k h[n,k]·W[j,k]) · (S n · norm n) + b j · norm n,  with S n the sum of
  the weights of the edges into n.  The kernel sums the weights first, thirty-two workers each over its own blocks of
  edges; the reference sums one message per edge.  The two agree on finite inputs.

  The idealization rewrote nothing, so the word-level program and the idealized one are the same program, and one
  run, stated at any float instance, serves both.
-/
import proofs.«207122_g38740605010510_cont_8to1_b_1101_12_alg».proof.Defs
import proofs.«207122_g38740605010510_cont_8to1_b_1101_12_alg».proof.Proof.Gen.Kernel
import proofs.«207122_g38740605010510_cont_8to1_b_1101_12_alg».proof.Proof.Gen.KernelIdeal
import proofs.«207122_g38740605010510_cont_8to1_b_1101_12_alg».proof.Proof.Gen.ReferenceIdeal
import proofs.«207122_g38740605010510_cont_8to1_b_1101_12_alg».proof.Proof.Gen.Pre_input_domain
import proofs.«207122_g38740605010510_cont_8to1_b_1101_12_alg».proof.Proof.Gen.ReferenceIdeal.Run
import proofs.«207122_g38740605010510_cont_8to1_b_1101_12_alg».proof.Proof.Gen.ReferenceIdeal.Read
import proofs.«207122_g38740605010510_cont_8to1_b_1101_12_alg».proof.Proof.RefValue
import proofs.«207122_g38740605010510_cont_8to1_b_1101_12_alg».proof.Proof.Algebra
import proofs.«207122_g38740605010510_cont_8to1_b_1101_12_alg».proof.Proof.PreFacts
import proofs.«207122_g38740605010510_cont_8to1_b_1101_12_alg».proof.Proof.KI.Run
import proofs.«207122_g38740605010510_cont_8to1_b_1101_12_alg».proof.Proof.KI.Value
import proofs.«207122_g38740605010510_cont_8to1_b_1101_12_alg».proof.Proof.KI.Bridge
import Idealize.ShloMosaic.Adequacy
import Idealize.ShloMosaic.Init

noncomputable section

namespace Cert.Proof

open Idealize.ShloMosaic Idealize.ShloMosaic.TcCoe Idealize.SL.Sem Idealize.ShloMosaic.ValueIdx
open Cert.KernelIdeal

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

section

variable [hK : Cert.Kernel.Facts] [hKI : Cert.KernelIdeal.Facts] [hR : Cert.ReferenceIdeal.Facts] [hP : Cert.Pre_input_domain.Facts]

/-- At any float instance the kernel runs, names its result and keeps its six arguments. -/
theorem run_kept {F : FTy → Type} [FloatOps F] [∀ e, Nonempty (Elt F e)]
    (m : (ℓ : Loc nD τ sig) → Buf (Elt F) ℓ) (ρ : Dev nD → PrngReg)
    (hr : ∀ (d : Dev nD) i, (m (Cert.KI.eiLoc d) i).toNat < 10000) :
    θ_run (Cert.KernelIdeal.defs (F := F)) (Cert.KernelIdeal.threads (F := F)) ⟨m, fun _ => 0, ρ⟩ (fun r => ∀ c : Dev nD,
      r.2.mem ((c.tc : Thread nD τ).loc main_v4) = Cert.KI.Wf m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run Cert.KernelIdeal.defs _ _).mono (fun r h c =>
      ⟨h c _ (mem_uc main_v4 (by decide)),
       (h c _ (mem_uc main_arg0 (by decide))).trans (Cert.KI.Wf_arg0 m c),
       (h c _ (mem_uc main_arg1 (by decide))).trans (Cert.KI.Wf_arg1 m c),
       (h c _ (mem_uc main_arg2 (by decide))).trans (Cert.KI.Wf_arg2 m c),
       (h c _ (mem_uc main_arg3 (by decide))).trans (Cert.KI.Wf_arg3 m c),
       (h c _ (mem_uc main_arg4 (by decide))).trans (Cert.KI.Wf_arg4 m c),
       (h c _ (mem_uc main_arg5 (by decide))).trans (Cert.KI.Wf_arg5 m c)⟩)
    (Cert.KI.run_main m ρ hr)

theorem frame_ki : Cert.frame_KernelIdeal := fun m ρ hpre =>
  (θ_run Cert.KernelIdeal.defs _ _).mono (fun _ h c => (h c).2)
    (run_kept (F := Ideal) m ρ fun d i => Cert.PreFacts.range_of_pre (F := Ideal) _ _ _ _ _ _ (hpre d) i)

-- The word-level program is the idealized program's text under another name: the two unfold to the same term.
set_option smartUnfolding false in
theorem frame_k : Cert.frame_Kernel := fun m ρ hpre =>
  (θ_run (Cert.KernelIdeal.defs (F := Bits)) _ _).mono (fun _ h c => (h c).2)
    (run_kept (F := Bits) m ρ fun d i => Cert.PreFacts.range_of_pre (F := Bits) _ _ _ _ _ _ (hpre d) i)

theorem frame_r : Cert.frame_ReferenceIdeal := fun m ρ _ =>
  (θ_run Cert.ReferenceIdeal.defs _ _).mono (fun _ h c => (h c).2) (Cert.ReferenceIdeal.Value.run (F := Ideal) m ρ)

/-- The kernel's result is the layer with the weights summed first, the reference's the layer with a message per
    edge; distributing h[n,k] out of the sum of messages and the scale over the bias needs every input finite. -/
theorem algebraic : Cert.algebraic_KernelIdeal_ReferenceIdeal := by
  intro m ρ m' ρ' hpre hagree
  have hr : ∀ (d : Dev nD) i, (m (Cert.KI.eiLoc d) i).toNat < 10000 :=
    fun d i => Cert.PreFacts.range_of_pre (F := Ideal) _ _ _ _ _ _ (hpre d) i
  refine ⟨fun c => Cert.KI.Wf m c (Proc.devRef .tc main_v4), run_kept (F := Ideal) m ρ hr, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f4, f5⟩ := Cert.PreFacts.finite_of_pre _ _ _ _ _ _ (hpre c)
  rw [(hagree c).1, (hagree c).2.1, (hagree c).2.2.1, (hagree c).2.2.2.1, (hagree c).2.2.2.2.1, (hagree c).2.2.2.2.2,
    Cert.ReferenceIdeal.Read.val_main_v20_eq, Cert.RefValue.val_eq _ _ _ _ _ _ (hr c),
    Cert.Spec.Algebra.layerMsg_eq_layerOut _ _ _ _ _ _ f0 (fun e => f1 _) (fun n => f2 _) f4 (fun j => f5 _)]
  exact (Cert.KI.result_eq m c (hr c)).symm

end

theorem claim : Cert.Claim := ⟨Cert.Kernel.Gen.facts, Cert.KernelIdeal.Gen.facts, Cert.ReferenceIdeal.Gen.facts, Cert.Pre_input_domain.Gen.facts,
  frame_k, frame_ki, frame_r, trivial, algebraic⟩

end Cert.Proof

end
